-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v142_0)) (v1 : (c : Dev Cert.KernelIdeal.nD) → Buf (Elt Ideal) ((c.tc : Thread Cert.KernelIdeal.nD Cert.KernelIdeal.τ).loc Cert.KernelIdeal.main_v110)) (v2 : (c : Dev Cert.KernelIdeal.nD) → Buf (Elt Ideal) ((c.tc : Thread Cert.KernelIdeal.nD Cert.KernelIdeal.τ).loc Cert.KernelIdeal.main_v111)) (v3 : (c : Dev Cert.KernelIdeal.nD) → Buf (Elt Ideal) ((c.tc : Thread Cert.KernelIdeal.nD Cert.KernelIdeal.τ).loc Cert.KernelIdeal.main_v142_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142_0) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_v111) = v2 c
          ∧ r.2.mem ((c.tc : Thread Cert.KernelIdeal.nD Cert.KernelIdeal.τ).loc Cert.KernelIdeal.main_v142_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_v284) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x1600000 : Shape := ⟨2, ![2, 1600000]⟩
abbrev S1600000 : Shape := ⟨1, ![1600000]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S64x6 : Shape := ⟨2, ![64, 6]⟩
abbrev S6 : Shape := ⟨1, ![6]⟩
abbrev S64x64 : Shape := ⟨2, ![64, 64]⟩
abbrev S64x1 : Shape := ⟨2, ![64, 1]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part9 {F : FTy → Type} [FloatOps F] (main_arg33 : FVec F S64 .f32) (main_arg34 : FVec F S64x1 .f32) (main_arg35 : FVec F S1 .f32) (main_v153 : IVec S_ 1) : IVec S_ 1 :=
  let main_v154 : FVec F S64 .f32 := Host.absf main_arg33
  let main_cst_60 : FVec F S_ .f32 := constant S_ .f32 0x7F800000#32
  let main_v155 : FVec F S64 .f32 := broadcastInDim S64 ![] bcast_S_S64 main_cst_60
  let main_v156 : IVec S64 1 := cmpf .olt main_v154 main_v155
  let main_c_61 : IVec S_ 1 := constantI S_ 1 1#1
  let main_v157 : IVec S_ 1 := (fun x v => Host.reduce IntOp.andi x v reducesTo_S64_S_d0 h_S_) main_v156 main_c_61
  let main_v158 : IVec S_ 1 := andi main_v153 main_v157
  let main_v159 : FVec F S64x1 .f32 := Host.absf main_arg34
  let main_cst_62 : FVec F S_ .f32 := constant S_ .f32 0x7F800000#32
  let main_v160 : FVec F S64x1 .f32 := broadcastInDim S64x1 ![] bcast_S_S64x1 main_cst_62
  let main_v161 : IVec S64x1 1 := cmpf .olt main_v159 main_v160
  let main_c_63 : IVec S_ 1 := constantI S_ 1 1#1
  let main_v162 : IVec S_ 1 := (fun x v => Host.reduce IntOp.andi x v reducesTo_S64x1_S_d0_1 h_S_) main_v161 main_c_63
  let main_v163 : IVec S_ 1 := andi main_v158 main_v162
  let main_v164 : FVec F S1 .f32 := Host.absf main_arg35
  let main_cst_64 : FVec F S_ .f32 := constant S_ .f32 0x7F800000#32
  let main_v165 : FVec F S1 .f32 := broadcastInDim S1 ![] bcast_S_S1 main_cst_64
  let main_v166 : IVec S1 1 := cmpf .olt main_v164 main_v165
  let main_c_65 : IVec S_ 1 := constantI S_ 1 1#1
  let main_v167 : IVec S_ 1 := (fun x v => Host.reduce IntOp.andi x v reducesTo_S1_S_d0 h_S_) main_v166 main_c_65
  let main_v168 : IVec S_ 1 := andi main_v163 main_v167
  main_v168

def fn_part8 {F : FTy → Type} [FloatOps F] (main_arg30 : FVec F S64x6 .f32) (main_arg31 : FVec F S6 .f32) (main_arg32 : FVec F S64x64 .f32) (main_arg33 : FVec F S64 .f32) (main_arg34 : FVec F S64x1 .f32) (main_arg35 : FVec F S1 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x6 .f32 := Host.absf main_arg30
  let main_cst_54 : FVec F S_ .f32 := constant S_ .f32 0x7F800000#32
  let main_v140 : FVec F S64x6 .f32 := broadcastInDim S64x6 ![] bcast_S_S64x6 main_cst_54
  let main_v141 : IVec S64x6 1 := cmpf .olt main_v139 main_v140
  let main_c_55 : IVec S_ 1 := constantI S_ 1 1#1
  let main_v142 : IVec S_ 1 := (fun x v => Host.reduce IntOp.andi x v reducesTo_S64x6_S_d0_1 h_S_) main_v141 main_c_55
  let main_v143 : IVec S_ 1 := andi main_v138 main_v142
  let main_v144 : FVec F S6 .f32 := Host.absf main_arg31
  let main_cst_56 : FVec F S_ .f32 := constant S_ .f32 0x7F800000#32
  let main_v145 : FVec F S6 .f32 := broadcastInDim S6 ![] bcast_S_S6 main_cst_56
  let main_v146 : IVec S6 1 := cmpf .olt main_v144 main_v145
  let main_c_57 : IVec S_ 1 := constantI S_ 1 1#1
  let main_v147 : IVec S_ 1 := (fun x v => Host.reduce IntOp.andi x v reducesTo_S6_S_d0 h_S_) main_v146 main_c_57
  let main_v148 : IVec S_ 1 := andi main_v143 main_v147
  let main_v149 : FVec F S64x64 .f32 := Host.absf main_arg32
  let main_cst_58 : FVec F S_ .f32 := constant S_ .f32 0x7F800000#32
  let main_v150 : FVec F S64x64 .f32 := broadcastInDim S64x64 ![] bcast_S_S64x64 main_cst_58
  let main_v151 : IVec S64x64 1 := cmpf .olt main_v149 main_v150
  let main_c_59 : IVec S_ 1 := constantI S_ 1 1#1
  let main_v152 : IVec S_ 1 := (fun x v => Host.reduce IntOp.andi x v reducesTo_S64x64_S_d0_1 h_S_) main_v151 main_c_59
  let main_v153 : IVec S_ 1 := andi main_v148 main_v152
  fn_part9 (F := F) main_arg33 main_arg34 main_arg35 main_v153

def fn_part7 {F : FTy → Type} [FloatOps F] (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) (main_v118 : IVec S_ 1) (main_v119 : FVec F S64x128 .f32) : IVec S_ 1 :=
  let main_cst_46 : FVec F S_ .f32 := constant S_ .f32 0x7F800000#32
  let main_v120 : FVec F S64x128 .f32 := broadcastInDim S64x128 ![] bcast_S_S64x128 main_cst_46
  let main_v121 : IVec S64x128 1 := cmpf .olt main_v119 main_v120
  let main_c_47 : IVec S_ 1 := constantI S_ 1 1#1
  let main_v122 : IVec S_ 1 := (fun x v => Host.reduce IntOp.andi x v reducesTo_S64x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x64 .f32 := Host.absf main_arg28
  let main_cst_50 : FVec F S_ .f32 := constant S_ .f32 0x7F800000#32
  let main_v130 : FVec F S128x64 .f32 := broadcastInDim S128x64 ![] bcast_S_S128x64 main_cst_50
  let main_v131 : IVec S128x64 1 := cmpf .olt main_v129 main_v130
  let main_c_51 : IVec S_ 1 := constantI S_ 1 1#1
  let main_v132 : IVec S_ 1 := (fun x v => Host.reduce IntOp.andi x v reducesTo_S128x64_S_d0_1 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg30 main_arg31 main_arg32 main_arg33 main_arg34 main_arg35 main_v133 main_v136

def fn_part6 {F : FTy → Type} [FloatOps F] (main_arg23 : FVec F S128 .f32) (main_arg24 : FVec F S128x1 .f32) (main_arg25 : FVec F S1 .f32) (main_arg26 : FVec F S64x128 .f32) (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) (main_v98 : IVec S_ 1) (main_v101 : IVec S64x128 1) (main_c_39 : IVec S_ 1) : IVec S_ 1 :=
  let main_v102 : IVec S_ 1 := (fun x v => Host.reduce IntOp.andi x v reducesTo_S64x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x1 .f32 := Host.absf main_arg24
  let main_cst_42 : FVec F S_ .f32 := constant S_ .f32 0x7F800000#32
  let main_v110 : FVec F S128x1 .f32 := broadcastInDim S128x1 ![] bcast_S_S128x1 main_cst_42
  let main_v111 : IVec S128x1 1 := cmpf .olt main_v109 main_v110
  let main_c_43 : IVec S_ 1 := constantI S_ 1 1#1
  let main_v112 : IVec S_ 1 := (fun x v => Host.reduce IntOp.andi x v reducesTo_S128x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S64x128 .f32 := Host.absf main_arg26
  fn_part7 (F := F) main_arg27 main_arg28 main_arg29 main_arg30 main_arg31 main_arg32 main_arg33 main_arg34 main_arg35 main_v118 main_v119

def fn_part5 {F : FTy → Type} [FloatOps F] (main_arg20 : FVec F S128 .f32) (main_arg21 : FVec F S128 .f32) (main_arg22 : FVec F S64x128 .f32) (main_arg23 : FVec F S128 .f32) (main_arg24 : FVec F S128x1 .f32) (main_arg25 : FVec F S1 .f32) (main_arg26 : FVec F S64x128 .f32) (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S64x128 .f32 := Host.absf main_arg22
  let main_cst_38 : FVec F S_ .f32 := constant S_ .f32 0x7F800000#32
  let main_v100 : FVec F S64x128 .f32 := broadcastInDim S64x128 ![] bcast_S_S64x128 main_cst_38
  let main_v101 : IVec S64x128 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_arg35 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S64x128 .f32) (main_arg23 : FVec F S128 .f32) (main_arg24 : FVec F S128x1 .f32) (main_arg25 : FVec F S1 .f32) (main_arg26 : FVec F S64x128 .f32) (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S64x128 .f32) (main_arg23 : FVec F S128 .f32) (main_arg24 : FVec F S128x1 .f32) (main_arg25 : FVec F S1 .f32) (main_arg26 : FVec F S64x128 .f32) (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg9 : FVec F S128 .f32) (main_arg10 : FVec F S128x64 .f32) (main_arg11 : FVec F S64 .f32) (main_arg12 : FVec F S128x64 .f32) (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S64x128 .f32) (main_arg23 : FVec F S128 .f32) (main_arg24 : FVec F S128x1 .f32) (main_arg25 : FVec F S1 .f32) (main_arg26 : FVec F S64x128 .f32) (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S128x64 .f32) (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S64x128 .f32) (main_arg23 : FVec F S128 .f32) (main_arg24 : FVec F S128x1 .f32) (main_arg25 : FVec F S1 .f32) (main_arg26 : FVec F S64x128 .f32) (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S50000x16 .f32) (main_arg1 : IVec S2x1600000 32) (main_arg2 : FVec F S1600000 .f32) (main_arg3 : IVec S50000 32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S128x64 .f32) (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S64x128 .f32) (main_arg23 : FVec F S128 .f32) (main_arg24 : FVec F S128x1 .f32) (main_arg25 : FVec F S1 .f32) (main_arg26 : FVec F S64x128 .f32) (main_arg27 : FVec F S128 .f32) (main_arg28 : FVec F S128x64 .f32) (main_arg29 : FVec F S64 .f32) (main_arg30 : FVec F S64x6 .f32) (main_arg31 : FVec F S6 .f32) (main_arg32 : FVec F S64x64 .f32) (main_arg33 : FVec F S64 .f32) (main_arg34 : FVec F S64x1 .f32) (main_arg35 : FVec F S1 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S50000x16 : Shape := ⟨2, ![50000, 16]⟩
abbrev S2x1600000 : Shape := ⟨2, ![2, 1600000]⟩
abbrev S1600000 : Shape := ⟨1, ![1600000]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S64x6 : Shape := ⟨2, ![64, 6]⟩
abbrev S6 : Shape := ⟨1, ![6]⟩
abbrev S64x64 : Shape := ⟨2, ![64, 64]⟩
abbrev S64x1 : Shape := ⟨2, ![64, 1]⟩
abbrev S1x1600000 : Shape := ⟨2, ![1, 1600000]⟩
abbrev S_ : Shape := ⟨0, ![]⟩
abbrev S1600000x1 : Shape := ⟨2, ![1600000, 1]⟩
abbrev S50000x1 : Shape := ⟨2, ![50000, 1]⟩
abbrev S1x128 : Shape := ⟨2, ![1, 128]⟩
abbrev S50000x128 : Shape := ⟨2, ![50000, 128]⟩
abbrev S5000x16 : Shape := ⟨2, ![5000, 16]⟩
abbrev S5000x128 : Shape := ⟨2, ![5000, 128]⟩
abbrev S1600000x128 : Shape := ⟨2, ![1600000, 128]⟩
abbrev S5000x1 : Shape := ⟨2, ![5000, 1]⟩
abbrev S50000x64 : Shape := ⟨2, ![50000, 64]⟩
abbrev S1x1 : Shape := ⟨2, ![1, 1]⟩
abbrev S5000x64 : Shape := ⟨2, ![5000, 64]⟩
abbrev S1x64 : Shape := ⟨2, ![1, 64]⟩
abbrev S1x6 : Shape := ⟨2, ![1, 6]⟩

abbrev nBuf : Space → Nat
  | .hbm => 210
  | .vmem => 86
  | .smem => 0
  | _ => 0

abbrev hbmTy0_0 (i : Nat) : BufTy := match i % 128 with
  | 0 => ⟨S50000x16, .f32⟩
  | 1 => ⟨S2x1600000, .i32⟩
  | 2 => ⟨S1600000, .f32⟩
  | 3 => ⟨S50000, .i32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S128x64, .f32⟩
  | 13 => ⟨S64, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S64x128, .f32⟩
  | 23 => ⟨S128, .f32⟩
  | 24 => ⟨S128x1, .f32⟩
  | 25 => ⟨S1, .f32⟩
  | 26 => ⟨S64x128, .f32⟩
  | 27 => ⟨S128, .f32⟩
  | 28 => ⟨S128x64, .f32⟩
  | 29 => ⟨S64, .f32⟩
  | 30 => ⟨S64x6, .f32⟩
  | 31 => ⟨S6, .f32⟩
  | 32 => ⟨S64x64, .f32⟩
  | 33 => ⟨S64, .f32⟩
  | 34 => ⟨S64x1, .f32⟩
  | 35 => ⟨S1, .f32⟩
  | 36 => ⟨S1x1600000, .i32⟩
  | 37 => ⟨S1600000, .i32⟩
  | 38 => ⟨S1x1600000, .i32⟩
  | 39 => ⟨S1600000, .i32⟩
  | 40 => ⟨S_, .f32⟩
  | 41 => ⟨S50000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S50000, .f32⟩
  | 51 => ⟨S_, .f32⟩
  | 52 => ⟨S50000, .f32⟩
  | 53 => ⟨S50000, .f32⟩
  | 54 => ⟨S50000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S1600000, .f32⟩
  | 75 => ⟨S50000x1, .f32⟩
  | 76 => ⟨S1x128, .f32⟩
  | 77 => ⟨S50000x128, .f32⟩
  | 78 => ⟨S1x128, .f32⟩
  | 79 => ⟨S50000x128, .bf16⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .bf16⟩
  | 89 => ⟨S1600000x128, .f32⟩
  | 90 => ⟨S1600000x1, .f32⟩
  | 91 => ⟨S1600000x128, .f32⟩
  | 92 => ⟨S1600000x128, .f32⟩
  | 93 => ⟨S_, .f32⟩
  | 94 => ⟨S50000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S50000x128, .f32⟩
  | 104 => ⟨S1x128, .f32⟩
  | 105 => ⟨S1x128, .f32⟩
  | 106 => ⟨S1x128, .f32⟩
  | 107 => ⟨S1x128, .f32⟩
  | 108 => ⟨S50000x128, .f32⟩
  | 109 => ⟨S1x128, .f32⟩
  | 110 => ⟨S50000x128, .bf16⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .bf16⟩
  | 120 => ⟨S1600000x128, .f32⟩
  | 121 => ⟨S1600000x1, .f32⟩
  | 122 => ⟨S1600000x128, .f32⟩
  | 123 => ⟨S1600000x128, .f32⟩
  | 124 => ⟨S_, .f32⟩
  | 125 => ⟨S50000x128, .f32⟩
  | 126 => ⟨S_, .i32⟩
  | 127 => ⟨S1600000, .i32⟩
  | _ => ⟨S50000x16, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S50000x128, .f32⟩
  | 7 => ⟨S1x128, .f32⟩
  | 8 => ⟨S1x128, .f32⟩
  | 9 => ⟨S1x128, .f32⟩
  | 10 => ⟨S1x128, .f32⟩
  | 11 => ⟨S50000x128, .f32⟩
  | 12 => ⟨S128x128, .f32⟩
  | 13 => ⟨S128, .f32⟩
  | 14 => ⟨S1x128, .f32⟩
  | 15 => ⟨S50000x128, .bf16⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .bf16⟩
  | 25 => ⟨S1600000x128, .f32⟩
  | 26 => ⟨S1600000x1, .f32⟩
  | 27 => ⟨S1600000x128, .f32⟩
  | 28 => ⟨S1600000x128, .f32⟩
  | 29 => ⟨S_, .f32⟩
  | 30 => ⟨S50000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S50000x128, .f32⟩
  | 40 => ⟨S50000x128, .f32⟩
  | 41 => ⟨S50000x64, .f32⟩
  | 42 => ⟨S50000x64, .f32⟩
  | 43 => ⟨S1x128, .f32⟩
  | 44 => ⟨S1x1, .f32⟩
  | 45 => ⟨S50000x1, .f32⟩
  | 46 => ⟨S_, .f32⟩
  | 47 => ⟨S1, .f32⟩
  | 48 => ⟨S_, .f32⟩
  | 49 => ⟨S1, .f32⟩
  | 50 => ⟨S1, .f32⟩
  | 51 => ⟨S1x1, .f32⟩
  | 52 => ⟨S50000x1, .f32⟩
  | 53 => ⟨S50000x1, .f32⟩
  | 54 => ⟨S50000x1, .f32⟩
  | 55 => ⟨S_, .f32⟩
  | 56 => ⟨S1, .f32⟩
  | 57 => ⟨S1x1, .f32⟩
  | 58 => ⟨S50000x1, .f32⟩
  | 59 => ⟨S50000x1, .f32⟩
  | 60 => ⟨S50000x1, .i32⟩
  | 61 => ⟨S64x64, .f32⟩
  | 62 => ⟨S64x64, .f32⟩
  | 63 => ⟨S_, .f32⟩
  | 64 => ⟨S50000, .f32⟩
  | 65 => ⟨S_, .f32⟩
  | 66 => ⟨S64, .f32⟩
  | 67 => ⟨S50000x1, .i32⟩
  | 68 => ⟨S64, .f32⟩
  | 69 => ⟨S_, .f32⟩
  | 70 => ⟨S64, .f32⟩
  | 71 => ⟨S64, .f32⟩
  | 72 => ⟨S64x1, .f32⟩
  | 73 => ⟨S64x64, .f32⟩
  | 74 => ⟨S64x64, .f32⟩
  | 75 => ⟨S1x128, .f32⟩
  | 76 => ⟨S1x64, .f32⟩
  | 77 => ⟨S1x6, .f32⟩
  | 78 => ⟨S1x64, .f32⟩
  | 79 => ⟨S1x1, .f32⟩
  | 80 => ⟨S64x6, .f32⟩
  | 81 => ⟨S64x1, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .bf16⟩
  | .local _ .vmem, ⟨29, _⟩ => ⟨S5000x128, .bf16⟩
  | .local _ .vmem, ⟨30, _⟩ => ⟨S5000x128, .bf16⟩
  | .local _ .vmem, ⟨31, _⟩ => ⟨S5000x128, .bf16⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .bf16⟩
  | .local _ .vmem, ⟨47, _⟩ => ⟨S5000x128, .bf16⟩
  | .local _ .vmem, ⟨48, _⟩ => ⟨S5000x128, .bf16⟩
  | .local _ .vmem, ⟨49, _⟩ => ⟨S5000x128, .bf16⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S5000x128, .f32⟩
  | .local _ .vmem, ⟨55, _⟩ => ⟨S5000x128, .f32⟩
  | .local _ .vmem, ⟨56, _⟩ => ⟨S5000x64, .f32⟩
  | .local _ .vmem, ⟨57, _⟩ => ⟨S5000x64, .f32⟩
  | .local _ .vmem, ⟨58, _⟩ => ⟨S64x128, .f32⟩
  | .local _ .vmem, ⟨59, _⟩ => ⟨S1x128, .f32⟩
  | .local _ .vmem, ⟨60, _⟩ => ⟨S128x1, .f32⟩
  | .local _ .vmem, ⟨61, _⟩ => ⟨S1x1, .f32⟩
  | .local _ .vmem, ⟨62, _⟩ => ⟨S5000x1, .f32⟩
  | .local _ .vmem, ⟨63, _⟩ => ⟨S5000x1, .f32⟩
  | .local _ .vmem, ⟨64, _⟩ => ⟨S5000x64, .f32⟩
  | .local _ .vmem, ⟨65, _⟩ => ⟨S5000x64, .f32⟩
  | .local _ .vmem, ⟨66, _⟩ => ⟨S5000x1, .f32⟩
  | .local _ .vmem, ⟨67, _⟩ => ⟨S5000x1, .f32⟩
  | .local _ .vmem, ⟨68, _⟩ => ⟨S5000x1, .i32⟩
  | .local _ .vmem, ⟨69, _⟩ => ⟨S5000x1, .i32⟩
  | .local _ .vmem, ⟨70, _⟩ => ⟨S64x64, .f32⟩
  | .local _ .vmem, ⟨71, _⟩ => ⟨S64x64, .f32⟩
  | .local _ .vmem, ⟨72, _⟩ => ⟨S64x64, .f32⟩
  | .local _ .vmem, ⟨73, _⟩ => ⟨S64x64, .f32⟩
  | .local _ .vmem, ⟨74, _⟩ => ⟨S64x128, .f32⟩
  | .local _ .vmem, ⟨75, _⟩ => ⟨S1x128, .f32⟩
  | .local _ .vmem, ⟨76, _⟩ => ⟨S128x64, .f32⟩
  | .local _ .vmem, ⟨77, _⟩ => ⟨S1x64, .f32⟩
  | .local _ .vmem, ⟨78, _⟩ => ⟨S64x6, .f32⟩
  | .local _ .vmem, ⟨79, _⟩ => ⟨S1x6, .f32⟩
  | .local _ .vmem, ⟨80, _⟩ => ⟨S64x64, .f32⟩
  | .local _ .vmem, ⟨81, _⟩ => ⟨S1x64, .f32⟩
  | .local _ .vmem, ⟨82, _⟩ => ⟨S64x1, .f32⟩
  | .local _ .vmem, ⟨83, _⟩ => ⟨S1x1, .f32⟩
  | .local _ .vmem, ⟨84, _⟩ => ⟨S64x6, .f32⟩
  | .local _ .vmem, ⟨85, _⟩ => ⟨S64x1, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_cst : Ref sig .tc := ⟨.hbm, 40, rfl⟩
abbrev main_v4 : Ref sig .tc := ⟨.hbm, 41, rfl⟩
abbrev main_c : Ref sig .tc := ⟨.hbm, 42, rfl⟩
abbrev main_v5 : Ref sig .tc := ⟨.hbm, 43, rfl⟩
abbrev main_v6 : Ref sig .tc := ⟨.hbm, 44, rfl⟩
abbrev main_c_0 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_2 : Ref sig .tc := ⟨.hbm, 55, rfl⟩
abbrev main_v15 : Ref sig .tc := ⟨.hbm, 56, rfl⟩
abbrev main_v16 : Ref sig .tc := ⟨.hbm, 57, rfl⟩
abbrev main_c_3 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_c_4 : Ref sig .tc := ⟨.hbm, 65, rfl⟩
abbrev main_v23 : Ref sig .tc := ⟨.hbm, 66, rfl⟩
abbrev main_v24 : Ref sig .tc := ⟨.hbm, 67, rfl⟩
abbrev main_c_5 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_6 : Ref sig .tc := ⟨.hbm, 80, rfl⟩
abbrev main_v36 : Ref sig .tc := ⟨.hbm, 81, rfl⟩
abbrev main_v37 : Ref sig .tc := ⟨.hbm, 82, rfl⟩
abbrev main_c_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_8 : Ref sig .tc := ⟨.hbm, 93, rfl⟩
abbrev main_v47 : Ref sig .tc := ⟨.hbm, 94, rfl⟩
abbrev main_c_9 : Ref sig .tc := ⟨.hbm, 95, rfl⟩
abbrev main_v48 : Ref sig .tc := ⟨.hbm, 96, rfl⟩
abbrev main_v49 : Ref sig .tc := ⟨.hbm, 97, rfl⟩
abbrev main_c_10 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_c_11 : Ref sig .tc := ⟨.hbm, 111, rfl⟩
abbrev main_v62 : Ref sig .tc := ⟨.hbm, 112, rfl⟩
abbrev main_v63 : Ref sig .tc := ⟨.hbm, 113, rfl⟩
abbrev main_c_12 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_13 : Ref sig .tc := ⟨.hbm, 124, rfl⟩
abbrev main_v73 : Ref sig .tc := ⟨.hbm, 125, rfl⟩
abbrev main_c_14 : Ref sig .tc := ⟨.hbm, 126, rfl⟩
abbrev main_v74 : Ref sig .tc := ⟨.hbm, 127, rfl⟩
abbrev main_v75 : Ref sig .tc := ⟨.hbm, 128, rfl⟩
abbrev main_c_15 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_c_16 : Ref sig .tc := ⟨.hbm, 144, rfl⟩
abbrev main_v90 : Ref sig .tc := ⟨.hbm, 145, rfl⟩
abbrev main_v91 : Ref sig .tc := ⟨.hbm, 146, rfl⟩
abbrev main_c_17 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_18 : Ref sig .tc := ⟨.hbm, 157, rfl⟩
abbrev main_v101 : Ref sig .tc := ⟨.hbm, 158, rfl⟩
abbrev main_c_19 : Ref sig .tc := ⟨.hbm, 159, rfl⟩
abbrev main_v102 : Ref sig .tc := ⟨.hbm, 160, rfl⟩
abbrev main_v103 : Ref sig .tc := ⟨.hbm, 161, rfl⟩
abbrev main_c_20 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_21 : Ref sig .tc := ⟨.hbm, 174, rfl⟩
abbrev main_v115 : Ref sig .tc := ⟨.hbm, 175, rfl⟩
abbrev main_cst_22 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_23 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127_0 : Ref sig .tc := ⟨.hbm, 189, rfl⟩
abbrev main_v127_1 : Ref sig .tc := ⟨.hbm, 190, rfl⟩
abbrev main_cst_24 : Ref sig .tc := ⟨.hbm, 191, rfl⟩
abbrev main_v128 : Ref sig .tc := ⟨.hbm, 192, rfl⟩
abbrev main_cst_25 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_cst_26 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142_0 : Ref sig .tc := ⟨.hbm, 208, rfl⟩
abbrev main_v142_1 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg7_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc8_stg3_0 : Ref sig .tc := ⟨.vmem, 70, rfl⟩
abbrev cc8_stg4_0 : Ref sig .tc := ⟨.vmem, 71, rfl⟩
abbrev cc9_stg0_0 : Ref sig .tc := ⟨.vmem, 72, rfl⟩
abbrev cc9_stg1_0 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg7_0 : Ref sig .tc := ⟨.vmem, 79, rfl⟩
abbrev cc9_stg8_0 : Ref sig .tc := ⟨.vmem, 80, rfl⟩
abbrev cc9_stg9_0 : Ref sig .tc := ⟨.vmem, 81, rfl⟩
abbrev cc9_stg10_0 : Ref sig .tc := ⟨.vmem, 82, rfl⟩
abbrev cc9_stg11_0 : Ref sig .tc := ⟨.vmem, 83, rfl⟩
abbrev cc9_stg12_0 : Ref sig .tc := ⟨.vmem, 84, rfl⟩
abbrev cc9_stg13_0 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem7_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc8_sem3_0 : DmaSem sig := 70
abbrev cc8_sem4_0 : DmaSem sig := 71
abbrev cc9_sem0_0 : DmaSem sig := 72
abbrev cc9_sem1_0 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem7_0 : DmaSem sig := 79
abbrev cc9_sem8_0 : DmaSem sig := 80
abbrev cc9_sem9_0 : DmaSem sig := 81
abbrev cc9_sem10_0 : DmaSem sig := 82
abbrev cc9_sem11_0 : DmaSem sig := 83
abbrev cc9_sem12_0 : DmaSem sig := 84
abbrev cc9_sem13_0 : DmaSem sig := 85

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .i32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_13 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S64x6 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x6 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S64x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x64 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S64x1 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S1x1 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

abbrev stage9_12 : Fin 1 → Memref sig .tc .vmem S64x6 .f32 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false]

abbrev stage9_13 : Fin 1 → Memref sig .tc .vmem S64x1 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S50000_S50000x1 : S50000.ShapeCasts S50000x1
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S50000x128_S50000x64_0_0 : S50000x128.Slices ![0, 0] S50000x64
  slices_S50000x128_S50000x64_0_64 : S50000x128.Slices ![0, 64] S50000x64
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  reducesTo_S50000x1_S1_d0 : S50000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  inb_S64x64_S64x64_0_0 : ∀ a, (![0, 0] : Fin 2 → Nat) a + S64x64.size a ≤ S64x64.size a
  h_S64x64 : 0 < S64x64.numel
  iota_S5000x64_d1_w32 : S5000x64.Iotas .tc 32 [1]
  broadcasts_S5000x1_S5000x64 : S5000x1.Broadcasts S5000x64
  natLt_1_32 : 1 < 32
  shapeCasts_S64x64_S64x64 : S64x64.ShapeCasts S64x64
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S64_S1x64 : S64.ShapeCasts S1x64
  shapeCasts_S6_S1x6 : S6.ShapeCasts S1x6
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S64x6 : S1x6.Broadcasts S64x6
  inb_S64x1_S64x1_0_0 : ∀ a, (![0, 0] : Fin 2 → Nat) a + S64x1.size a ≤ S64x1.size a
  h_S64x1 : 0 < S64x1.numel
  broadcasts_S1x1_S64x1 : S1x1.Broadcasts S64x1
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x64_S64x128_S5000x128_1_0_0_1_n_n_wf : DotDims.WF S5000x64 S64x128 S5000x128 [1] [0] [0] [1] [] []
  dot_S5000x128_S128x1_S5000x1_1_0_0_1_n_n_wf : DotDims.WF S5000x128 S128x1 S5000x1 [1] [0] [0] [1] [] []
  dot_S5000x64_S5000x64_S64x64_0_0_1_1_n_n_wf : DotDims.WF S5000x64 S5000x64 S64x64 [0] [0] [1] [1] [] []
  scatter_S64_S50000x1_S50000_n_0_0_1_wf : ScatterDims.WF S64 S50000x1 S50000 [] [0] [0] 1
  dot_S64x64_S64x128_S64x128_1_0_0_1_n_n_wf : DotDims.WF S64x64 S64x128 S64x128 [1] [0] [0] [1] [] []
  dot_S64x128_S128x64_S64x64_1_0_0_1_n_n_wf : DotDims.WF S64x128 S128x64 S64x64 [1] [0] [0] [1] [] []
  dot_S64x64_S64x6_S64x6_1_0_0_1_n_n_wf : DotDims.WF S64x64 S64x6 S64x6 [1] [0] [0] [1] [] []
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .bf16 = 32 ∨ (Rect.block (s := S50000x128) S5000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .bf16 = 32 ∨ (Rect.block (s := S50000x128) S5000x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .bf16 = 32 ∨ (Rect.block (s := S50000x128) S5000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S50000x1.size a
  hwx7_5 : ∀ i : grid7.Coords, EltTy.bits .f32 = 32 ∨ (Rect.block (s := S50000x1) S5000x1.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .f32 = 32 ∨ (Rect.block (s := S50000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .i32 = 32 ∨ (Rect.block (s := S50000x1) S5000x1.size (cc8_transform_2 i) (hinb8_2 i)).WholeWords (EltTy.packing .i32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x64.size a ≤ S64x64.size a
  hwx9_0 : ∀ i : grid9.Coords, EltTy.bits .f32 = 32 ∨ (Rect.block (s := S64x64) S64x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x128.size a ≤ S64x128.size a
  hwx9_2 : ∀ i : grid9.Coords, EltTy.bits .f32 = 32 ∨ (Rect.block (s := S64x128) S64x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x64.size a ≤ S128x64.size a
  hwx9_4 : ∀ i : grid9.Coords, EltTy.bits .f32 = 32 ∨ (Rect.block (s := S128x64) S128x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x64.size a ≤ S1x64.size a
  hwx9_5 : ∀ i : grid9.Coords, EltTy.bits .f32 = 32 ∨ (Rect.block (s := S1x64) S1x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S64x6.size a ≤ S64x6.size a
  hwx9_6 : ∀ i : grid9.Coords, EltTy.bits .f32 = 32 ∨ (Rect.block (s := S64x6) S64x6.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x6.size a ≤ S1x6.size a
  hwx9_7 : ∀ i : grid9.Coords, EltTy.bits .f32 = 32 ∨ (Rect.block (s := S1x6) S1x6.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S64x64.size a ≤ S64x64.size a
  hwx9_8 : ∀ i : grid9.Coords, EltTy.bits .f32 = 32 ∨ (Rect.block (s := S64x64) S64x64.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x64.size a ≤ S1x64.size a
  hwx9_9 : ∀ i : grid9.Coords, EltTy.bits .f32 = 32 ∨ (Rect.block (s := S1x64) S1x64.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S64x1.size a ≤ S64x1.size a
  hwx9_10 : ∀ i : grid9.Coords, EltTy.bits .f32 = 32 ∨ (Rect.block (s := S64x1) S64x1.size (cc9_transform_10 i) (hinb9_10 i)).WholeWords (EltTy.packing .f32)
  hstage9_11 : ∀ j, (stage9_11 j).IsWhole
  nbuf9_11 : grid9.bufCount reads9_11 true = 1
  hreads9_11 : ∀ i i' : grid9.Coords, (∀ a, reads9_11 a = true → i a = i' a) → cc9_transform_11 i = cc9_transform_11 i'
  hinb9_11 : ∀ (i : grid9.Coords) a, (cc9_transform_11 i a + 1) * S1x1.size a ≤ S1x1.size a
  hwx9_11 : ∀ i : grid9.Coords, EltTy.bits .f32 = 32 ∨ (Rect.block (s := S1x1) S1x1.size (cc9_transform_11 i) (hinb9_11 i)).WholeWords (EltTy.packing .f32)
  hstage9_12 : ∀ j, (stage9_12 j).IsWhole
  nbuf9_12 : grid9.bufCount reads9_12 true = 1
  hreads9_12 : ∀ i i' : grid9.Coords, (∀ a, reads9_12 a = true → i a = i' a) → cc9_transform_12 i = cc9_transform_12 i'
  hinb9_12 : ∀ (i : grid9.Coords) a, (cc9_transform_12 i a + 1) * S64x6.size a ≤ S64x6.size a
  hwx9_12 : ∀ i : grid9.Coords, EltTy.bits .f32 = 32 ∨ (Rect.block (s := S64x6) S64x6.size (cc9_transform_12 i) (hinb9_12 i)).WholeWords (EltTy.packing .f32)
  hstage9_13 : ∀ j, (stage9_13 j).IsWhole
  nbuf9_13 : grid9.bufCount reads9_13 true = 1
  hreads9_13 : ∀ i i' : grid9.Coords, (∀ a, reads9_13 a = true → i a = i' a) → cc9_transform_13 i = cc9_transform_13 i'
  hinb9_13 : ∀ (i : grid9.Coords) a, (cc9_transform_13 i a + 1) * S64x1.size a ≤ S64x1.size a
  hwx9_13 : ∀ i : grid9.Coords, EltTy.bits .f32 = 32 ∨ (Rect.block (s := S64x1) S64x1.size (cc9_transform_13 i) (hinb9_13 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v83) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v85) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v85) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v89) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v31) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v109) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v110) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg22) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v112) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg24) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v113) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v114) S5000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v110) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v125) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v126) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v127_0) S64x64.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v127_1) S64x64.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v127_0) S64x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v136) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg26) S64x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v137) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg28) S128x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v138) S1x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_arg30) S64x6.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v139) S1x6.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_arg32) S64x64.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v140) S1x64.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_arg34) S64x1.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v141) S1x1.size cc9_transform_11 reads9_11 false true 1 stage9_11 sem9_11
    hrank9 hreads9_11 hinb9_11 nbuf9_11 (Memref.isWhole_whole _) hwx9_11 hstage9_11

abbrev win9_12 : Pipeline.Window sig grid9 :=
  Pipeline.Window.ofSpec (Memref.whole main_v142_0) S64x6.size cc9_transform_12 reads9_12 true true 1 stage9_12 sem9_12
    hrank9 hreads9_12 hinb9_12 nbuf9_12 (Memref.isWhole_whole _) hwx9_12 hstage9_12

abbrev win9_13 : Pipeline.Window sig grid9 :=
  Pipeline.Window.ofSpec (Memref.whole main_v142_1) S64x1.size cc9_transform_13 reads9_13 true true 1 stage9_13 sem9_13
    hrank9 hreads9_13 hinb9_13 nbuf9_13 (Memref.isWhole_whole _) hwx9_13 hstage9_13

abbrev win9 : Fin 14 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | 12 => win9_12 | 13 => win9_13 | ⟨_ + 14, h⟩ => absurd h (Nat.not_lt.2 (Nat.le_add_left _ _))
abbrev spec9 : Fin 14 → Pipeline.WinSpec sig grid9.rank := fun w => (win9 w).toWinSpec

class Facts : Prop extends Facts₀ where

variable [Facts]
-- ==== ReferenceIdeal.lean ====
abbrev S50000x16 : Shape := ⟨2, ![50000, 16]⟩
abbrev S2x1600000 : Shape := ⟨2, ![2, 1600000]⟩
abbrev S1600000 : Shape := ⟨1, ![1600000]⟩
abbrev S50000 : Shape := ⟨1, ![50000]⟩
abbrev S16x128 : Shape := ⟨2, ![16, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S64x6 : Shape := ⟨2, ![64, 6]⟩
abbrev S6 : Shape := ⟨1, ![6]⟩
abbrev S64x64 : Shape := ⟨2, ![64, 64]⟩
abbrev S64x1 : Shape := ⟨2, ![64, 1]⟩
abbrev S1x1600000 : Shape := ⟨2, ![1, 1600000]⟩
abbrev S_ : Shape := ⟨0, ![]⟩
abbrev S1600000x1 : Shape := ⟨2, ![1600000, 1]⟩
abbrev S50000x128 : Shape := ⟨2, ![50000, 128]⟩
abbrev S1x128 : Shape := ⟨2, ![1, 128]⟩
abbrev S1600000x128 : Shape := ⟨2, ![1600000, 128]⟩
abbrev S50000x1 : Shape := ⟨2, ![50000, 1]⟩
abbrev S50000x64 : Shape := ⟨2, ![50000, 64]⟩
abbrev S1x64 : Shape := ⟨2, ![1, 64]⟩
abbrev S1600000x64 : Shape := ⟨2, ![1600000, 64]⟩
abbrev S1x1 : Shape := ⟨2, ![1, 1]⟩
abbrev S1x6 : Shape := ⟨2, ![1, 6]⟩

abbrev nBuf : Space → Nat
  | .hbm => 383
  | .vmem => 0
  | .smem => 0
  | _ => 0

abbrev hbmTy0_0 (i : Nat) : BufTy := match i % 128 with
  | 0 => ⟨S50000x16, .f32⟩
  | 1 => ⟨S2x1600000, .i32⟩
  | 2 => ⟨S1600000, .f32⟩
  | 3 => ⟨S50000, .i32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S128x64, .f32⟩
  | 13 => ⟨S64, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S64x128, .f32⟩
  | 23 => ⟨S128, .f32⟩
  | 24 => ⟨S128x1, .f32⟩
  | 25 => ⟨S1, .f32⟩
  | 26 => ⟨S64x128, .f32⟩
  | 27 => ⟨S128, .f32⟩
  | 28 => ⟨S128x64, .f32⟩
  | 29 => ⟨S64, .f32⟩
  | 30 => ⟨S64x6, .f32⟩
  | 31 => ⟨S6, .f32⟩
  | 32 => ⟨S64x64, .f32⟩
  | 33 => ⟨S64, .f32⟩
  | 34 => ⟨S64x1, .f32⟩
  | 35 => ⟨S1, .f32⟩
  | 36 => ⟨S1x1600000, .i32⟩
  | 37 => ⟨S1600000, .i32⟩
  | 38 => ⟨S1x1600000, .i32⟩
  | 39 => ⟨S1600000, .i32⟩
  | 40 => ⟨S_, .f32⟩
  | 41 => ⟨S50000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S50000, .f32⟩
  | 51 => ⟨S_, .f32⟩
  | 52 => ⟨S50000, .f32⟩
  | 53 => ⟨S50000, .f32⟩
  | 54 => ⟨S50000, .f32⟩
  | 55 => ⟨S50000x128, .f32⟩
  | 56 => ⟨S1x128, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S1600000, .f32⟩
  | 83 => ⟨S_, .f32⟩
  | 84 => ⟨S50000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S1600000x1, .f32⟩
  | 95 => ⟨S1600000x128, .f32⟩
  | 96 => ⟨S1600000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S50000x128, .f32⟩
  | 106 => ⟨S50000, .f32⟩
  | 107 => ⟨S50000x1, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x16, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .f32⟩
  | 23 => ⟨S1600000, .f32⟩
  | 24 => ⟨S_, .f32⟩
  | 25 => ⟨S50000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S1600000x1, .f32⟩
  | 36 => ⟨S1600000x128, .f32⟩
  | 37 => ⟨S1600000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S50000x128, .f32⟩
  | 47 => ⟨S50000, .f32⟩
  | 48 => ⟨S50000x1, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x64, .f32⟩
  | 70 => ⟨S1x64, .f32⟩
  | 71 => ⟨S50000x64, .f32⟩
  | 72 => ⟨S50000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .f32⟩
  | 94 => ⟨S50000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x1, .f32⟩
  | 105 => ⟨S1600000x64, .f32⟩
  | 106 => ⟨S1600000x64, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S50000x64, .f32⟩
  | 116 => ⟨S50000, .f32⟩
  | 117 => ⟨S50000x1, .f32⟩
  | 118 => ⟨S50000x64, .f32⟩
  | 119 => ⟨S50000x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S_, .i32⟩
  | 126 => ⟨S1600000, .i32⟩
  | 127 => ⟨S1600000, .i1⟩
  | _ => ⟨S50000x16, .f32⟩

abbrev hbmTy0_2 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000, .f32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S1600000, .f32⟩
  | 17 => ⟨S_, .f32⟩
  | 18 => ⟨S50000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x1, .f32⟩
  | 29 => ⟨S1600000x64, .f32⟩
  | 30 => ⟨S1600000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S50000x64, .f32⟩
  | 40 => ⟨S50000, .f32⟩
  | 41 => ⟨S50000x1, .f32⟩
  | 42 => ⟨S50000x64, .f32⟩
  | 43 => ⟨S50000x64, .f32⟩
  | 44 => ⟨S50000x64, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x1, .f32⟩
  | 51 => ⟨S1x1, .f32⟩
  | 52 => ⟨S50000x1, .f32⟩
  | 53 => ⟨S50000x1, .f32⟩
  | 54 => ⟨S_, .f32⟩
  | 55 => ⟨S1, .f32⟩
  | 56 => ⟨S_, .f32⟩
  | 57 => ⟨S1, .f32⟩
  | 58 => ⟨S1, .f32⟩
  | 59 => ⟨S1x1, .f32⟩
  | 60 => ⟨S50000x1, .f32⟩
  | 61 => ⟨S50000x1, .f32⟩
  | 62 => ⟨S50000x1, .f32⟩
  | 63 => ⟨S_, .f32⟩
  | 64 => ⟨S1, .f32⟩
  | 65 => ⟨S1x1, .f32⟩
  | 66 => ⟨S50000x1, .f32⟩
  | 67 => ⟨S50000x1, .f32⟩
  | 68 => ⟨S50000x64, .f32⟩
  | 69 => ⟨S50000x64, .f32⟩
  | 70 => ⟨S_, .f32⟩
  | 71 => ⟨S64x64, .f32⟩
  | 72 => ⟨S50000x1, .i32⟩
  | 73 => ⟨S64x64, .f32⟩
  | 74 => ⟨S64x128, .f32⟩
  | 75 => ⟨S1x128, .f32⟩
  | 76 => ⟨S64x128, .f32⟩
  | 77 => ⟨S64x128, .f32⟩
  | 78 => ⟨S_, .f32⟩
  | 79 => ⟨S64x128, .f32⟩
  | 80 => ⟨S64x128, .f32⟩
  | 81 => ⟨S64x64, .f32⟩
  | 82 => ⟨S1x64, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S64x6, .f32⟩
  | 89 => ⟨S1x6, .f32⟩
  | 90 => ⟨S64x6, .f32⟩
  | 91 => ⟨S64x6, .f32⟩
  | 92 => ⟨S_, .f32⟩
  | 93 => ⟨S50000, .f32⟩
  | 94 => ⟨S_, .f32⟩
  | 95 => ⟨S64, .f32⟩
  | 96 => ⟨S50000x1, .i32⟩
  | 97 => ⟨S64, .f32⟩
  | 98 => ⟨S_, .f32⟩
  | 99 => ⟨S64x64, .f32⟩
  | 100 => ⟨S50000x1, .i32⟩
  | 101 => ⟨S64x64, .f32⟩
  | 102 => ⟨S_, .f32⟩
  | 103 => ⟨S64, .f32⟩
  | 104 => ⟨S64, .f32⟩
  | 105 => ⟨S64x1, .f32⟩
  | 106 => ⟨S64x64, .f32⟩
  | 107 => ⟨S64x64, .f32⟩
  | 108 => ⟨S64x64, .f32⟩
  | 109 => ⟨S1x64, .f32⟩
  | 110 => ⟨S64x64, .f32⟩
  | 111 => ⟨S64x64, .f32⟩
  | 112 => ⟨S_, .f32⟩
  | 113 => ⟨S64x64, .f32⟩
  | 114 => ⟨S64x64, .f32⟩
  | 115 => ⟨S64x1, .f32⟩
  | 116 => ⟨S1x1, .f32⟩
  | 117 => ⟨S64x1, .f32⟩
  | 118 => ⟨S64x1, .f32⟩
  | 119 => ⟨S64x1, .f32⟩
  | 120 => ⟨S64x1, .f32⟩
  | 121 => ⟨S_, .f32⟩
  | 122 => ⟨S64x1, .f32⟩
  | 123 => ⟨S64x1, .f32⟩
  | 124 => ⟨S_, .f32⟩
  | 125 => ⟨S64x1, .f32⟩
  | 126 => ⟨S64x1, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_cst : Ref sig .tc := ⟨.hbm, 40, rfl⟩
abbrev main_v4 : Ref sig .tc := ⟨.hbm, 41, rfl⟩
abbrev main_c : Ref sig .tc := ⟨.hbm, 42, rfl⟩
abbrev main_v5 : Ref sig .tc := ⟨.hbm, 43, rfl⟩
abbrev main_v6 : Ref sig .tc := ⟨.hbm, 44, rfl⟩
abbrev main_c_0 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_v23 : Ref sig .tc := ⟨.hbm, 64, rfl⟩
abbrev main_v24 : Ref sig .tc := ⟨.hbm, 65, rfl⟩
abbrev main_c_3 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c_4 : Ref sig .tc := ⟨.hbm, 73, rfl⟩
abbrev main_v31 : Ref sig .tc := ⟨.hbm, 74, rfl⟩
abbrev main_v32 : Ref sig .tc := ⟨.hbm, 75, rfl⟩
abbrev main_c_5 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_6 : Ref sig .tc := ⟨.hbm, 83, rfl⟩
abbrev main_v39 : Ref sig .tc := ⟨.hbm, 84, rfl⟩
abbrev main_c_7 : Ref sig .tc := ⟨.hbm, 85, rfl⟩
abbrev main_v40 : Ref sig .tc := ⟨.hbm, 86, rfl⟩
abbrev main_v41 : Ref sig .tc := ⟨.hbm, 87, rfl⟩
abbrev main_c_8 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c_9 : Ref sig .tc := ⟨.hbm, 97, rfl⟩
abbrev main_v50 : Ref sig .tc := ⟨.hbm, 98, rfl⟩
abbrev main_v51 : Ref sig .tc := ⟨.hbm, 99, rfl⟩
abbrev main_c_10 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_11 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_call0_cst : Ref sig .tc := ⟨.hbm, 125, rfl⟩
abbrev main_call0_v0 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_c_12 : Ref sig .tc := ⟨.hbm, 132, rfl⟩
abbrev main_v80 : Ref sig .tc := ⟨.hbm, 133, rfl⟩
abbrev main_v81 : Ref sig .tc := ⟨.hbm, 134, rfl⟩
abbrev main_c_13 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_14 : Ref sig .tc := ⟨.hbm, 142, rfl⟩
abbrev main_v88 : Ref sig .tc := ⟨.hbm, 143, rfl⟩
abbrev main_v89 : Ref sig .tc := ⟨.hbm, 144, rfl⟩
abbrev main_c_15 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_16 : Ref sig .tc := ⟨.hbm, 152, rfl⟩
abbrev main_v96 : Ref sig .tc := ⟨.hbm, 153, rfl⟩
abbrev main_c_17 : Ref sig .tc := ⟨.hbm, 154, rfl⟩
abbrev main_v97 : Ref sig .tc := ⟨.hbm, 155, rfl⟩
abbrev main_v98 : Ref sig .tc := ⟨.hbm, 156, rfl⟩
abbrev main_c_18 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_c_19 : Ref sig .tc := ⟨.hbm, 166, rfl⟩
abbrev main_v107 : Ref sig .tc := ⟨.hbm, 167, rfl⟩
abbrev main_v108 : Ref sig .tc := ⟨.hbm, 168, rfl⟩
abbrev main_c_20 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_21 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_call1_cst : Ref sig .tc := ⟨.hbm, 194, rfl⟩
abbrev main_call1_v0 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_c_22 : Ref sig .tc := ⟨.hbm, 201, rfl⟩
abbrev main_v137 : Ref sig .tc := ⟨.hbm, 202, rfl⟩
abbrev main_v138 : Ref sig .tc := ⟨.hbm, 203, rfl⟩
abbrev main_c_23 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_c_24 : Ref sig .tc := ⟨.hbm, 211, rfl⟩
abbrev main_v145 : Ref sig .tc := ⟨.hbm, 212, rfl⟩
abbrev main_v146 : Ref sig .tc := ⟨.hbm, 213, rfl⟩
abbrev main_c_25 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_26 : Ref sig .tc := ⟨.hbm, 221, rfl⟩
abbrev main_v153 : Ref sig .tc := ⟨.hbm, 222, rfl⟩
abbrev main_c_27 : Ref sig .tc := ⟨.hbm, 223, rfl⟩
abbrev main_v154 : Ref sig .tc := ⟨.hbm, 224, rfl⟩
abbrev main_v155 : Ref sig .tc := ⟨.hbm, 225, rfl⟩
abbrev main_c_28 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_c_29 : Ref sig .tc := ⟨.hbm, 235, rfl⟩
abbrev main_v164 : Ref sig .tc := ⟨.hbm, 236, rfl⟩
abbrev main_v165 : Ref sig .tc := ⟨.hbm, 237, rfl⟩
abbrev main_c_30 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_c_31 : Ref sig .tc := ⟨.hbm, 253, rfl⟩
abbrev main_v180 : Ref sig .tc := ⟨.hbm, 254, rfl⟩
abbrev main_v181 : Ref sig .tc := ⟨.hbm, 255, rfl⟩
abbrev main_c_32 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_c_33 : Ref sig .tc := ⟨.hbm, 263, rfl⟩
abbrev main_v188 : Ref sig .tc := ⟨.hbm, 264, rfl⟩
abbrev main_v189 : Ref sig .tc := ⟨.hbm, 265, rfl⟩
abbrev main_c_34 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_35 : Ref sig .tc := ⟨.hbm, 273, rfl⟩
abbrev main_v196 : Ref sig .tc := ⟨.hbm, 274, rfl⟩
abbrev main_c_36 : Ref sig .tc := ⟨.hbm, 275, rfl⟩
abbrev main_v197 : Ref sig .tc := ⟨.hbm, 276, rfl⟩
abbrev main_v198 : Ref sig .tc := ⟨.hbm, 277, rfl⟩
abbrev main_c_37 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_c_38 : Ref sig .tc := ⟨.hbm, 287, rfl⟩
abbrev main_v207 : Ref sig .tc := ⟨.hbm, 288, rfl⟩
abbrev main_v208 : Ref sig .tc := ⟨.hbm, 289, rfl⟩
abbrev main_c_39 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_cst_40 : Ref sig .tc := ⟨.hbm, 310, rfl⟩
abbrev main_v228 : Ref sig .tc := ⟨.hbm, 311, rfl⟩
abbrev main_cst_41 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_cst_42 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_cst_43 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_call2_cst : Ref sig .tc := ⟨.hbm, 334, rfl⟩
abbrev main_call2_v0 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_call3_cst : Ref sig .tc := ⟨.hbm, 341, rfl⟩
abbrev main_call3_v0 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_cst_44 : Ref sig .tc := ⟨.hbm, 348, rfl⟩
abbrev main_v258 : Ref sig .tc := ⟨.hbm, 349, rfl⟩
abbrev main_cst_45 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_cst_46 : Ref sig .tc := ⟨.hbm, 354, rfl⟩
abbrev main_v262 : Ref sig .tc := ⟨.hbm, 355, rfl⟩
abbrev main_v263 : Ref sig .tc := ⟨.hbm, 356, rfl⟩
abbrev main_v264 : Ref sig .tc := ⟨.hbm, 357, rfl⟩
abbrev main_cst_47 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_call4_cst : Ref sig .tc := ⟨.hbm, 368, rfl⟩
abbrev main_call4_v0 : Ref sig .tc := ⟨.hbm, 369, rfl⟩
abbrev main_v274 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_cst_48 : Ref sig .tc := ⟨.hbm, 377, rfl⟩
abbrev main_v281 : Ref sig .tc := ⟨.hbm, 378, rfl⟩
abbrev main_v282 : Ref sig .tc := ⟨.hbm, 379, rfl⟩
abbrev main_cst_49 : Ref sig .tc := ⟨.hbm, 380, rfl⟩
abbrev main_v283 : Ref sig .tc := ⟨.hbm, 381, rfl⟩
abbrev main_v284 : Ref sig .tc := ⟨.hbm, 382, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1600000x1_S1600000x128_0_1 : S1600000x1.BroadcastsInDim S1600000x128 (![0, 1] : Fin 2 → Fin S1600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1600000x1_S1600000x64_0_1 : S1600000x1.BroadcastsInDim S1600000x64 (![0, 1] : Fin 2 → Fin S1600000x64.rank)
  bcast_S50000x1_S50000x64_0_1 : S50000x1.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1 : S_.BroadcastsInDim S1 (![] : Fin 0 → Fin S1.rank)
  bcast_S_S64x64 : S_.BroadcastsInDim S64x64 (![] : Fin 0 → Fin S64x64.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1x64_S64x64_0_1 : S1x64.BroadcastsInDim S64x64 (![0, 1] : Fin 2 → Fin S64x64.rank)
  bcast_S6_S1x6_1 : S6.BroadcastsInDim S1x6 (![1] : Fin 1 → Fin S1x6.rank)
  bcast_S1x6_S64x6_0_1 : S1x6.BroadcastsInDim S64x6 (![0, 1] : Fin 2 → Fin S64x6.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S50000_S1600000x1_S1600000_n_0_0_1_wf : ScatterDims.WF S50000 S1600000x1 S1600000 [] [0] [0] 1
  dot_S50000x16_S16x128_S50000x128_1_0_0_1_n_n_wf : DotDims.WF S50000x16 S16x128 S50000x128 [1] [0] [0] [1] [] []
  dot_S50000x128_S128x128_S50000x128_1_0_0_1_n_n_wf : DotDims.WF S50000x128 S128x128 S50000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x128_S50000x128_1_0_0_1_n_n_wf : DotDims.WF S50000x64 S64x128 S50000x128 [1] [0] [0] [1] [] []
  dot_S50000x128_S128x1_S50000x1_1_0_0_1_n_n_wf : DotDims.WF S50000x128 S128x1 S50000x1 [1] [0] [0] [1] [] []
  scatter_S64x64_S50000x1_S50000x64_1_0_0_1_wf : ScatterDims.WF S64x64 S50000x1 S50000x64 [1] [0] [0] 1
  dot_S64x64_S64x128_S64x128_1_0_0_1_n_n_wf : DotDims.WF S64x64 S64x128 S64x128 [1] [0] [0] [1] [] []
  dot_S64x128_S128x64_S64x64_1_0_0_1_n_n_wf : DotDims.WF S64x128 S128x64 S64x64 [1] [0] [0] [1] [] []
  dot_S64x64_S64x6_S64x6_1_0_0_1_n_n_wf : DotDims.WF S64x64 S64x6 S64x6 [1] [0] [0] [1] [] []
  scatter_S64_S50000x1_S50000_n_0_0_1_wf : ScatterDims.WF S64 S50000x1 S50000 [] [0] [0] 1
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x6_S64x6_1_0_0_1_n_n : DotDims S64x64 S64x6 S64x6 where
  lhsContracting := [1]
  rhsContracting := [0]
  lhsNonContracting := [0]
  rhsNonContracting := [1]
  lhsBatch := []
  rhsBatch := []
  wf := dot_S64x64_S64x6_S64x6_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RRunOps.lean ====
import proofs.«429700_j86320252715258_2_alg».proof.Proof.Gen.ReferenceIdeal
import Idealize.ShloMosaic.Lib.StableHlo.Run
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem single_sub (y : Ref sig .tc) (L : List (Ref sig .tc)) (h : y ∈ L) :
    ({Proc.devRef (τ := τ) .tc y} : Finset (DevRef τ sig)) ⊆ (L.map (Proc.devRef (τ := τ) .tc)).toFinset := by
  intro x hx
  rw [Finset.mem_singleton] at hx
  subst hx
  exact List.mem_toFinset.mpr (List.mem_map.mpr ⟨y, h, rfl⟩)

def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35]

set_option maxHeartbeats 4000000 in

abbrev ops0 : List (HloOp τ sig (Elt F)) :=
  [ unary main_arg1 main_v0 ((extractStridedSlice S1x1600000 ![0, 0] · slices_S2x1600000_S1x1600000_0_0)),
    reshape main_v0 main_v1 rfl shapeCasts_S1x1600000_S1600000,
    unary main_arg1 main_v2 ((extractStridedSlice S1x1600000 ![1, 0] · slices_S2x1600000_S1x1600000_1_0)),
    reshape main_v2 main_v3 rfl shapeCasts_S1x1600000_S1600000,
    nullary main_cst (constant S_ .f32 0x00000000#32),
    unary main_cst main_v4 (broadcastInDim S50000 ![] bcast_S_S50000),
    nullary main_c (constantI S_ 32 0#32),
    unary main_c main_v5 (broadcastInDim S1600000 ![] bcast_S_S1600000),
    binary main_v3 main_v5 main_v6 (cmpi .slt),
    nullary main_c_0 (constantI S_ 32 50000#32),
    unary main_c_0 main_v7 (broadcastInDim S1600000 ![] bcast_S_S1600000),
    binary main_v3 main_v7 main_v8 (addi),
    ternary main_v6 main_v8 main_v3 main_v9 (select),
    unary main_v9 main_v10 (broadcastInDim S1600000x1 ![0] bcast_S1600000_S1600000x1_0),
    ternary main_v4 main_v10 main_arg2 main_v11 ((fun x i u => Host.scatterAdd scatter_S50000_S1600000x1_S1600000_n_0_0_1 x i u)),
    nullary main_cst_1 (constant S_ .f32 0x3F800000#32),
    unary main_cst_1 main_v12 (broadcastInDim S50000 ![] bcast_S_S50000),
    binary main_v11 main_v12 main_v13 (addf),
    unary main_v13 main_v14 (Host.rsqrt),
    binary main_arg0 main_arg4 main_v15 ((fun l r => Host.dotGeneral dot_S50000x16_S16x128_S50000x128_1_0_0_1_n_n none l r)),
    unary main_arg5 main_v16 (broadcastInDim S1x128 ![1] bcast_S128_S1x128_1),
    unary main_v16 main_v17 (broadcastInDim S50000x128 ![0, 1] bcast_S1x128_S50000x128_0_1),
    binary main_v15 main_v17 main_v18 (addf),
    binary main_v18 main_arg6 main_v19 ((fun l r => Host.dotGeneral dot_S50000x128_S128x128_S50000x128_1_0_0_1_n_n none l r)),
    unary main_arg7 main_v20 (broadcastInDim S1x128 ![1] bcast_S128_S1x128_1),
    unary main_v20 main_v21 (broadcastInDim S50000x128 ![0, 1] bcast_S1x128_S50000x128_0_1),
    binary main_v19 main_v21 main_v22 (addf),
    nullary main_c_2 (constantI S_ 32 0#32),
    unary main_c_2 main_v23 (broadcastInDim S1600000 ![] bcast_S_S1600000),
    binary main_v1 main_v23 main_v24 (cmpi .slt),
    nullary main_c_3 (constantI S_ 32 50000#32),
    unary main_c_3 main_v25 (broadcastInDim S1600000 ![] bcast_S_S1600000),
    binary main_v1 main_v25 main_v26 (addi),
    ternary main_v24 main_v26 main_v1 main_v27 (select),
    unary main_v27 main_v28 (broadcastInDim S1600000x1 ![0] bcast_S1600000_S1600000x1_0),
    binary main_v14 main_v28 main_v29 ((fun x i => Host.gather gather_S50000_S1600000x1_S1600000_n_0_n_n_0_1_1 x i)),
    binary main_arg2 main_v29 main_v30 (mulf),
    nullary main_c_4 (constantI S_ 32 0#32),
    unary main_c_4 main_v31 (broadcastInDim S1600000 ![] bcast_S_S1600000),
    binary main_v3 main_v31 main_v32 (cmpi .slt),
    nullary main_c_5 (constantI S_ 32 50000#32),
    unary main_c_5 main_v33 (broadcastInDim S1600000 ![] bcast_S_S1600000),
    binary main_v3 main_v33 main_v34 (addi),
    ternary main_v32 main_v34 main_v3 main_v35 (select),
    unary main_v35 main_v36 (broadcastInDim S1600000x1 ![0] bcast_S1600000_S1600000x1_0),
    binary main_v14 main_v36 main_v37 ((fun x i => Host.gather gather_S50000_S1600000x1_S1600000_n_0_n_n_0_1_1 x i)),
    binary main_v30 main_v37 main_v38 (mulf),
    nullary main_cst_6 (constant S_ .f32 0x00000000#32),
    unary main_cst_6 main_v39 (broadcastInDim S50000x128 ![] bcast_S_S50000x128),
    nullary main_c_7 (constantI S_ 32 0#32),
    unary main_c_7 main_v40 (broadcastInDim S1600000 ![] bcast_S_S1600000),
    binary main_v1 main_v40 main_v41 (cmpi .slt),
    nullary main_c_8 (constantI S_ 32 50000#32),
    unary main_c_8 main_v42 (broadcastInDim S1600000 ![] bcast_S_S1600000),
    binary main_v1 main_v42 main_v43 (addi),
    ternary main_v41 main_v43 main_v1 main_v44 (select),
    unary main_v44 main_v45 (broadcastInDim S1600000x1 ![0] bcast_S1600000_S1600000x1_0),
    binary main_v22 main_v45 main_v46 ((fun x i => Host.gather gather_S50000x128_S1600000x1_S1600000x128_1_0_n_n_0_1_1128 x i)),
    unary main_v38 main_v47 (broadcastInDim S1600000x1 ![0] bcast_S1600000_S1600000x1_0),
    unary main_v47 main_v48 (broadcastInDim S1600000x128 ![0, 1] bcast_S1600000x1_S1600000x128_0_1) ]

set_option maxRecDepth 8192 in
set_option maxHeartbeats 40000000 in

theorem main_part0_eq (c : Dev nD) : main_part0 (F := F) c = seq ops0 := rfl

set_option maxRecDepth 8192 in

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩

set_option maxRecDepth 8192 in

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def wr0 : List (Ref sig .tc) := [main_v0, main_v1, main_v2, main_v3, main_cst, main_v4, main_c, main_v5, main_v6, main_c_0, main_v7, main_v8, main_v9, main_v10, main_v11, main_cst_1, main_v12, main_v13, main_v14, main_v15, main_v16, main_v17, main_v18, main_v19, main_v20, main_v21, main_v22, main_c_2, main_v23, main_v24, main_c_3, main_v25, main_v26, main_v27, main_v28, main_v29, main_v30, main_c_4, main_v31, main_v32, main_c_5, main_v33, main_v34, main_v35, main_v36, main_v37, main_v38, main_cst_6, main_v39, main_c_7, main_v40, main_v41, main_c_8, main_v42, main_v43, main_v44, main_v45, main_v46, main_v47, main_v48]

set_option maxRecDepth 8192 in

theorem writes0 : (ops0 (F := F)).Forall fun op => op.writes ⊆ ((wr0).map (Proc.devRef (τ := τ) .tc)).toFinset := by
  simp only [ops0, List.Forall, StableHlo.nullary_writes, StableHlo.unary_writes, StableHlo.binary_writes,
    StableHlo.ternary_writes, StableHlo.reshape_writes]
  repeat' apply And.intro
  all_goals exact single_sub _ _ (by decide)

theorem pass0 (W : Valuation τ sig (Elt F)) (r : Ref sig .tc) (hr : r ∉ wr0) :
    after (ops0 (F := F)) W (Proc.devRef .tc r) = W (Proc.devRef .tc r) :=
  after_of_writes_sub _ W writes0 hr

theorem argNot0 : ∀ r ∈ argRefs, r ∉ wr0 := by decide

set_option maxHeartbeats 4000000 in

abbrev ops1 : List (HloOp τ sig (Elt F)) :=
  [ binary main_v46 main_v48 main_v49 (mulf),
    nullary main_c_9 (constantI S_ 32 0#32),
    unary main_c_9 main_v50 (broadcastInDim S1600000 ![] bcast_S_S1600000),
    binary main_v3 main_v50 main_v51 (cmpi .slt),
    nullary main_c_10 (constantI S_ 32 50000#32),
    unary main_c_10 main_v52 (broadcastInDim S1600000 ![] bcast_S_S1600000),
    binary main_v3 main_v52 main_v53 (addi),
    ternary main_v51 main_v53 main_v3 main_v54 (select),
    unary main_v54 main_v55 (broadcastInDim S1600000x1 ![0] bcast_S1600000_S1600000x1_0),
    ternary main_v39 main_v55 main_v49 main_v56 ((fun x i u => Host.scatterAdd scatter_S50000x128_S1600000x1_S1600000x128_1_0_0_1 x i u)),
    binary main_v14 main_v14 main_v57 (mulf),
    unary main_v57 main_v58 (broadcastInDim S50000x1 ![0] bcast_S50000_S50000x1_0),
    unary main_v58 main_v59 (broadcastInDim S50000x128 ![0, 1] bcast_S50000x1_S50000x128_0_1),
    binary main_v22 main_v59 main_v60 (mulf),
    binary main_v56 main_v60 main_v61 (addf),
    unary main_arg16 main_v62 (broadcastInDim S1x128 ![1] bcast_S128_S1x128_1),
    unary main_v62 main_v63 (broadcastInDim S50000x128 ![0, 1] bcast_S1x128_S50000x128_0_1),
    binary main_v61 main_v63 main_v64 (subf),
    nullary main_cst_11 (constant S_ .f32 0x3727C5AC#32),
    unary main_cst_11 main_v65 (broadcastInDim S128 ![] bcast_S_S128),
    binary main_arg17 main_v65 main_v66 (addf),
    unary main_v66 main_v67 (Host.rsqrt),
    binary main_arg14 main_v67 main_v68 (mulf),
    unary main_v68 main_v69 (broadcastInDim S1x128 ![1] bcast_S128_S1x128_1),
    unary main_v69 main_v70 (broadcastInDim S50000x128 ![0, 1] bcast_S1x128_S50000x128_0_1),
    binary main_v64 main_v70 main_v71 (mulf),
    unary main_arg15 main_v72 (broadcastInDim S1x128 ![1] bcast_S128_S1x128_1),
    unary main_v72 main_v73 (broadcastInDim S50000x128 ![0, 1] bcast_S1x128_S50000x128_0_1),
    binary main_v71 main_v73 main_v74 (addf),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v74) (TRef.of (T := ⟨S50000x128, .f32⟩) main_call0_v0) (TRef.of (T := ⟨S50000x128, .f32⟩) main_v75) maximumf,
    binary main_v75 main_arg8 main_v76 ((fun l r => Host.dotGeneral dot_S50000x128_S128x128_S50000x128_1_0_0_1_n_n none l r)),
    unary main_arg9 main_v77 (broadcastInDim S1x128 ![1] bcast_S128_S1x128_1),
    unary main_v77 main_v78 (broadcastInDim S50000x128 ![0, 1] bcast_S1x128_S50000x128_0_1),
    binary main_v76 main_v78 main_v79 (addf),
    nullary main_c_12 (constantI S_ 32 0#32),
    unary main_c_12 main_v80 (broadcastInDim S1600000 ![] bcast_S_S1600000),
    binary main_v1 main_v80 main_v81 (cmpi .slt),
    nullary main_c_13 (constantI S_ 32 50000#32),
    unary main_c_13 main_v82 (broadcastInDim S1600000 ![] bcast_S_S1600000),
    binary main_v1 main_v82 main_v83 (addi),
    ternary main_v81 main_v83 main_v1 main_v84 (select),
    unary main_v84 main_v85 (broadcastInDim S1600000x1 ![0] bcast_S1600000_S1600000x1_0),
    binary main_v14 main_v85 main_v86 ((fun x i => Host.gather gather_S50000_S1600000x1_S1600000_n_0_n_n_0_1_1 x i)),
    binary main_arg2 main_v86 main_v87 (mulf),
    nullary main_c_14 (constantI S_ 32 0#32),
    unary main_c_14 main_v88 (broadcastInDim S1600000 ![] bcast_S_S1600000),
    binary main_v3 main_v88 main_v89 (cmpi .slt),
    nullary main_c_15 (constantI S_ 32 50000#32),
    unary main_c_15 main_v90 (broadcastInDim S1600000 ![] bcast_S_S1600000),
    binary main_v3 main_v90 main_v91 (addi),
    ternary main_v89 main_v91 main_v3 main_v92 (select),
    unary main_v92 main_v93 (broadcastInDim S1600000x1 ![0] bcast_S1600000_S1600000x1_0),
    binary main_v14 main_v93 main_v94 ((fun x i => Host.gather gather_S50000_S1600000x1_S1600000_n_0_n_n_0_1_1 x i)),
    binary main_v87 main_v94 main_v95 (mulf),
    nullary main_cst_16 (constant S_ .f32 0x00000000#32),
    unary main_cst_16 main_v96 (broadcastInDim S50000x128 ![] bcast_S_S50000x128),
    nullary main_c_17 (constantI S_ 32 0#32),
    unary main_c_17 main_v97 (broadcastInDim S1600000 ![] bcast_S_S1600000),
    binary main_v1 main_v97 main_v98 (cmpi .slt),
    nullary main_c_18 (constantI S_ 32 50000#32) ]

set_option maxRecDepth 8192 in
set_option maxHeartbeats 40000000 in

theorem main_part1_eq (c : Dev nD) : main_part1 (F := F) c = seq ops1 := rfl

set_option maxRecDepth 8192 in

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub ..⟩

set_option maxRecDepth 8192 in

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def wr1 : List (Ref sig .tc) := [main_v49, main_c_9, main_v50, main_v51, main_c_10, main_v52, main_v53, main_v54, main_v55, main_v56, main_v57, main_v58, main_v59, main_v60, main_v61, main_v62, main_v63, main_v64, main_cst_11, main_v65, main_v66, main_v67, main_v68, main_v69, main_v70, main_v71, main_v72, main_v73, main_v74, main_call0_cst, main_call0_v0, main_v75, main_v76, main_v77, main_v78, main_v79, main_c_12, main_v80, main_v81, main_c_13, main_v82, main_v83, main_v84, main_v85, main_v86, main_v87, main_c_14, main_v88, main_v89, main_c_15, main_v90, main_v91, main_v92, main_v93, main_v94, main_v95, main_cst_16, main_v96, main_c_17, main_v97, main_v98, main_c_18]

set_option maxRecDepth 8192 in

theorem writes1 : (ops1 (F := F)).Forall fun op => op.writes ⊆ ((wr1).map (Proc.devRef (τ := τ) .tc)).toFinset := by
  simp only [ops1, List.Forall, StableHlo.nullary_writes, StableHlo.unary_writes, StableHlo.binary_writes,
    StableHlo.ternary_writes, StableHlo.reshape_writes]
  repeat' apply And.intro
  all_goals exact single_sub _ _ (by decide)

theorem pass1 (W : Valuation τ sig (Elt F)) (r : Ref sig .tc) (hr : r ∉ wr1) :
    after (ops1 (F := F)) W (Proc.devRef .tc r) = W (Proc.devRef .tc r) :=
  after_of_writes_sub _ W writes1 hr

theorem argNot1 : ∀ r ∈ argRefs, r ∉ wr1 := by decide

set_option maxHeartbeats 4000000 in

abbrev ops2 : List (HloOp τ sig (Elt F)) :=
  [ unary main_c_18 main_v99 (broadcastInDim S1600000 ![] bcast_S_S1600000),
    binary main_v1 main_v99 main_v100 (addi),
    ternary main_v98 main_v100 main_v1 main_v101 (select),
    unary main_v101 main_v102 (broadcastInDim S1600000x1 ![0] bcast_S1600000_S1600000x1_0),
    binary main_v79 main_v102 main_v103 ((fun x i => Host.gather gather_S50000x128_S1600000x1_S1600000x128_1_0_n_n_0_1_1128 x i)),
    unary main_v95 main_v104 (broadcastInDim S1600000x1 ![0] bcast_S1600000_S1600000x1_0),
    unary main_v104 main_v105 (broadcastInDim S1600000x128 ![0, 1] bcast_S1600000x1_S1600000x128_0_1),
    binary main_v103 main_v105 main_v106 (mulf),
    nullary main_c_19 (constantI S_ 32 0#32),
    unary main_c_19 main_v107 (broadcastInDim S1600000 ![] bcast_S_S1600000),
    binary main_v3 main_v107 main_v108 (cmpi .slt),
    nullary main_c_20 (constantI S_ 32 50000#32),
    unary main_c_20 main_v109 (broadcastInDim S1600000 ![] bcast_S_S1600000),
    binary main_v3 main_v109 main_v110 (addi),
    ternary main_v108 main_v110 main_v3 main_v111 (select),
    unary main_v111 main_v112 (broadcastInDim S1600000x1 ![0] bcast_S1600000_S1600000x1_0),
    ternary main_v96 main_v112 main_v106 main_v113 ((fun x i u => Host.scatterAdd scatter_S50000x128_S1600000x1_S1600000x128_1_0_0_1 x i u)),
    binary main_v14 main_v14 main_v114 (mulf),
    unary main_v114 main_v115 (broadcastInDim S50000x1 ![0] bcast_S50000_S50000x1_0),
    unary main_v115 main_v116 (broadcastInDim S50000x128 ![0, 1] bcast_S50000x1_S50000x128_0_1),
    binary main_v79 main_v116 main_v117 (mulf),
    binary main_v113 main_v117 main_v118 (addf),
    unary main_arg20 main_v119 (broadcastInDim S1x128 ![1] bcast_S128_S1x128_1),
    unary main_v119 main_v120 (broadcastInDim S50000x128 ![0, 1] bcast_S1x128_S50000x128_0_1),
    binary main_v118 main_v120 main_v121 (subf),
    nullary main_cst_21 (constant S_ .f32 0x3727C5AC#32),
    unary main_cst_21 main_v122 (broadcastInDim S128 ![] bcast_S_S128),
    binary main_arg21 main_v122 main_v123 (addf),
    unary main_v123 main_v124 (Host.rsqrt),
    binary main_arg18 main_v124 main_v125 (mulf),
    unary main_v125 main_v126 (broadcastInDim S1x128 ![1] bcast_S128_S1x128_1),
    unary main_v126 main_v127 (broadcastInDim S50000x128 ![0, 1] bcast_S1x128_S50000x128_0_1),
    binary main_v121 main_v127 main_v128 (mulf),
    unary main_arg19 main_v129 (broadcastInDim S1x128 ![1] bcast_S128_S1x128_1),
    unary main_v129 main_v130 (broadcastInDim S50000x128 ![0, 1] bcast_S1x128_S50000x128_0_1),
    binary main_v128 main_v130 main_v131 (addf),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v131) (TRef.of (T := ⟨S50000x128, .f32⟩) main_call1_v0) (TRef.of (T := ⟨S50000x128, .f32⟩) main_v132) maximumf,
    binary main_v132 main_arg10 main_v133 ((fun l r => Host.dotGeneral dot_S50000x128_S128x64_S50000x64_1_0_0_1_n_n none l r)),
    unary main_arg11 main_v134 (broadcastInDim S1x64 ![1] bcast_S64_S1x64_1),
    unary main_v134 main_v135 (broadcastInDim S50000x64 ![0, 1] bcast_S1x64_S50000x64_0_1),
    binary main_v133 main_v135 main_v136 (addf),
    nullary main_c_22 (constantI S_ 32 0#32),
    unary main_c_22 main_v137 (broadcastInDim S1600000 ![] bcast_S_S1600000),
    binary main_v1 main_v137 main_v138 (cmpi .slt),
    nullary main_c_23 (constantI S_ 32 50000#32),
    unary main_c_23 main_v139 (broadcastInDim S1600000 ![] bcast_S_S1600000),
    binary main_v1 main_v139 main_v140 (addi),
    ternary main_v138 main_v140 main_v1 main_v141 (select),
    unary main_v141 main_v142 (broadcastInDim S1600000x1 ![0] bcast_S1600000_S1600000x1_0),
    binary main_v14 main_v142 main_v143 ((fun x i => Host.gather gather_S50000_S1600000x1_S1600000_n_0_n_n_0_1_1 x i)),
    binary main_arg2 main_v143 main_v144 (mulf),
    nullary main_c_24 (constantI S_ 32 0#32),
    unary main_c_24 main_v145 (broadcastInDim S1600000 ![] bcast_S_S1600000),
    binary main_v3 main_v145 main_v146 (cmpi .slt),
    nullary main_c_25 (constantI S_ 32 50000#32),
    unary main_c_25 main_v147 (broadcastInDim S1600000 ![] bcast_S_S1600000),
    binary main_v3 main_v147 main_v148 (addi),
    ternary main_v146 main_v148 main_v3 main_v149 (select),
    unary main_v149 main_v150 (broadcastInDim S1600000x1 ![0] bcast_S1600000_S1600000x1_0),
    binary main_v14 main_v150 main_v151 ((fun x i => Host.gather gather_S50000_S1600000x1_S1600000_n_0_n_n_0_1_1 x i)) ]

set_option maxRecDepth 8192 in
set_option maxHeartbeats 40000000 in

theorem main_part2_eq (c : Dev nD) : main_part2 (F := F) c = seq ops2 := rfl

set_option maxRecDepth 8192 in

theorem ops2_sub : (ops2 : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def wr2 : List (Ref sig .tc) := [main_v99, main_v100, main_v101, main_v102, main_v103, main_v104, main_v105, main_v106, main_c_19, main_v107, main_v108, main_c_20, main_v109, main_v110, main_v111, main_v112, main_v113, main_v114, main_v115, main_v116, main_v117, main_v118, main_v119, main_v120, main_v121, main_cst_21, main_v122, main_v123, main_v124, main_v125, main_v126, main_v127, main_v128, main_v129, main_v130, main_v131, main_call1_cst, main_call1_v0, main_v132, main_v133, main_v134, main_v135, main_v136, main_c_22, main_v137, main_v138, main_c_23, main_v139, main_v140, main_v141, main_v142, main_v143, main_v144, main_c_24, main_v145, main_v146, main_c_25, main_v147, main_v148, main_v149, main_v150, main_v151]

set_option maxRecDepth 8192 in

theorem writes2 : (ops2 (F := F)).Forall fun op => op.writes ⊆ ((wr2).map (Proc.devRef (τ := τ) .tc)).toFinset := by
  simp only [ops2, List.Forall, StableHlo.nullary_writes, StableHlo.unary_writes, StableHlo.binary_writes,
    StableHlo.ternary_writes, StableHlo.reshape_writes]
  repeat' apply And.intro
  all_goals exact single_sub _ _ (by decide)

theorem pass2 (W : Valuation τ sig (Elt F)) (r : Ref sig .tc) (hr : r ∉ wr2) :
    after (ops2 (F := F)) W (Proc.devRef .tc r) = W (Proc.devRef .tc r) :=
  after_of_writes_sub _ W writes2 hr

theorem argNot2 : ∀ r ∈ argRefs, r ∉ wr2 := by decide

set_option maxHeartbeats 4000000 in

abbrev ops3 : List (HloOp τ sig (Elt F)) :=
  [ binary main_v144 main_v151 main_v152 (mulf),
    nullary main_cst_26 (constant S_ .f32 0x00000000#32),
    unary main_cst_26 main_v153 (broadcastInDim S50000x64 ![] bcast_S_S50000x64),
    nullary main_c_27 (constantI S_ 32 0#32),
    unary main_c_27 main_v154 (broadcastInDim S1600000 ![] bcast_S_S1600000),
    binary main_v1 main_v154 main_v155 (cmpi .slt),
    nullary main_c_28 (constantI S_ 32 50000#32),
    unary main_c_28 main_v156 (broadcastInDim S1600000 ![] bcast_S_S1600000),
    binary main_v1 main_v156 main_v157 (addi),
    ternary main_v155 main_v157 main_v1 main_v158 (select),
    unary main_v158 main_v159 (broadcastInDim S1600000x1 ![0] bcast_S1600000_S1600000x1_0),
    binary main_v136 main_v159 main_v160 ((fun x i => Host.gather gather_S50000x64_S1600000x1_S1600000x64_1_0_n_n_0_1_164 x i)),
    unary main_v152 main_v161 (broadcastInDim S1600000x1 ![0] bcast_S1600000_S1600000x1_0),
    unary main_v161 main_v162 (broadcastInDim S1600000x64 ![0, 1] bcast_S1600000x1_S1600000x64_0_1),
    binary main_v160 main_v162 main_v163 (mulf),
    nullary main_c_29 (constantI S_ 32 0#32),
    unary main_c_29 main_v164 (broadcastInDim S1600000 ![] bcast_S_S1600000),
    binary main_v3 main_v164 main_v165 (cmpi .slt),
    nullary main_c_30 (constantI S_ 32 50000#32),
    unary main_c_30 main_v166 (broadcastInDim S1600000 ![] bcast_S_S1600000),
    binary main_v3 main_v166 main_v167 (addi),
    ternary main_v165 main_v167 main_v3 main_v168 (select),
    unary main_v168 main_v169 (broadcastInDim S1600000x1 ![0] bcast_S1600000_S1600000x1_0),
    ternary main_v153 main_v169 main_v163 main_v170 ((fun x i u => Host.scatterAdd scatter_S50000x64_S1600000x1_S1600000x64_1_0_0_1 x i u)),
    binary main_v14 main_v14 main_v171 (mulf),
    unary main_v171 main_v172 (broadcastInDim S50000x1 ![0] bcast_S50000_S50000x1_0),
    unary main_v172 main_v173 (broadcastInDim S50000x64 ![0, 1] bcast_S50000x1_S50000x64_0_1),
    binary main_v136 main_v173 main_v174 (mulf),
    binary main_v170 main_v174 main_v175 (addf),
    binary main_v132 main_arg12 main_v176 ((fun l r => Host.dotGeneral dot_S50000x128_S128x64_S50000x64_1_0_0_1_n_n none l r)),
    unary main_arg13 main_v177 (broadcastInDim S1x64 ![1] bcast_S64_S1x64_1),
    unary main_v177 main_v178 (broadcastInDim S50000x64 ![0, 1] bcast_S1x64_S50000x64_0_1),
    binary main_v176 main_v178 main_v179 (addf),
    nullary main_c_31 (constantI S_ 32 0#32),
    unary main_c_31 main_v180 (broadcastInDim S1600000 ![] bcast_S_S1600000),
    binary main_v1 main_v180 main_v181 (cmpi .slt),
    nullary main_c_32 (constantI S_ 32 50000#32),
    unary main_c_32 main_v182 (broadcastInDim S1600000 ![] bcast_S_S1600000),
    binary main_v1 main_v182 main_v183 (addi),
    ternary main_v181 main_v183 main_v1 main_v184 (select),
    unary main_v184 main_v185 (broadcastInDim S1600000x1 ![0] bcast_S1600000_S1600000x1_0),
    binary main_v14 main_v185 main_v186 ((fun x i => Host.gather gather_S50000_S1600000x1_S1600000_n_0_n_n_0_1_1 x i)),
    binary main_arg2 main_v186 main_v187 (mulf),
    nullary main_c_33 (constantI S_ 32 0#32),
    unary main_c_33 main_v188 (broadcastInDim S1600000 ![] bcast_S_S1600000),
    binary main_v3 main_v188 main_v189 (cmpi .slt),
    nullary main_c_34 (constantI S_ 32 50000#32),
    unary main_c_34 main_v190 (broadcastInDim S1600000 ![] bcast_S_S1600000),
    binary main_v3 main_v190 main_v191 (addi),
    ternary main_v189 main_v191 main_v3 main_v192 (select),
    unary main_v192 main_v193 (broadcastInDim S1600000x1 ![0] bcast_S1600000_S1600000x1_0),
    binary main_v14 main_v193 main_v194 ((fun x i => Host.gather gather_S50000_S1600000x1_S1600000_n_0_n_n_0_1_1 x i)),
    binary main_v187 main_v194 main_v195 (mulf),
    nullary main_cst_35 (constant S_ .f32 0x00000000#32),
    unary main_cst_35 main_v196 (broadcastInDim S50000x64 ![] bcast_S_S50000x64),
    nullary main_c_36 (constantI S_ 32 0#32),
    unary main_c_36 main_v197 (broadcastInDim S1600000 ![] bcast_S_S1600000),
    binary main_v1 main_v197 main_v198 (cmpi .slt),
    nullary main_c_37 (constantI S_ 32 50000#32),
    unary main_c_37 main_v199 (broadcastInDim S1600000 ![] bcast_S_S1600000) ]

set_option maxRecDepth 8192 in
set_option maxHeartbeats 40000000 in

theorem main_part3_eq (c : Dev nD) : main_part3 (F := F) c = seq ops3 := rfl

set_option maxRecDepth 8192 in

theorem ops3_sub : (ops3 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub ..⟩

set_option maxRecDepth 8192 in

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def wr3 : List (Ref sig .tc) := [main_v152, main_cst_26, main_v153, main_c_27, main_v154, main_v155, main_c_28, main_v156, main_v157, main_v158, main_v159, main_v160, main_v161, main_v162, main_v163, main_c_29, main_v164, main_v165, main_c_30, main_v166, main_v167, main_v168, main_v169, main_v170, main_v171, main_v172, main_v173, main_v174, main_v175, main_v176, main_v177, main_v178, main_v179, main_c_31, main_v180, main_v181, main_c_32, main_v182, main_v183, main_v184, main_v185, main_v186, main_v187, main_c_33, main_v188, main_v189, main_c_34, main_v190, main_v191, main_v192, main_v193, main_v194, main_v195, main_cst_35, main_v196, main_c_36, main_v197, main_v198, main_c_37, main_v199]

set_option maxRecDepth 8192 in

theorem writes3 : (ops3 (F := F)).Forall fun op => op.writes ⊆ ((wr3).map (Proc.devRef (τ := τ) .tc)).toFinset := by
  simp only [ops3, List.Forall, StableHlo.nullary_writes, StableHlo.unary_writes, StableHlo.binary_writes,
    StableHlo.ternary_writes, StableHlo.reshape_writes]
  repeat' apply And.intro
  all_goals exact single_sub _ _ (by decide)

theorem pass3 (W : Valuation τ sig (Elt F)) (r : Ref sig .tc) (hr : r ∉ wr3) :
    after (ops3 (F := F)) W (Proc.devRef .tc r) = W (Proc.devRef .tc r) :=
  after_of_writes_sub _ W writes3 hr

theorem argNot3 : ∀ r ∈ argRefs, r ∉ wr3 := by decide

set_option maxHeartbeats 4000000 in

abbrev ops4 : List (HloOp τ sig (Elt F)) :=
  [ binary main_v1 main_v199 main_v200 (addi),
    ternary main_v198 main_v200 main_v1 main_v201 (select),
    unary main_v201 main_v202 (broadcastInDim S1600000x1 ![0] bcast_S1600000_S1600000x1_0),
    binary main_v179 main_v202 main_v203 ((fun x i => Host.gather gather_S50000x64_S1600000x1_S1600000x64_1_0_n_n_0_1_164 x i)),
    unary main_v195 main_v204 (broadcastInDim S1600000x1 ![0] bcast_S1600000_S1600000x1_0),
    unary main_v204 main_v205 (broadcastInDim S1600000x64 ![0, 1] bcast_S1600000x1_S1600000x64_0_1),
    binary main_v203 main_v205 main_v206 (mulf),
    nullary main_c_38 (constantI S_ 32 0#32),
    unary main_c_38 main_v207 (broadcastInDim S1600000 ![] bcast_S_S1600000),
    binary main_v3 main_v207 main_v208 (cmpi .slt),
    nullary main_c_39 (constantI S_ 32 50000#32),
    unary main_c_39 main_v209 (broadcastInDim S1600000 ![] bcast_S_S1600000),
    binary main_v3 main_v209 main_v210 (addi),
    ternary main_v208 main_v210 main_v3 main_v211 (select),
    unary main_v211 main_v212 (broadcastInDim S1600000x1 ![0] bcast_S1600000_S1600000x1_0),
    ternary main_v196 main_v212 main_v206 main_v213 ((fun x i u => Host.scatterAdd scatter_S50000x64_S1600000x1_S1600000x64_1_0_0_1 x i u)),
    binary main_v14 main_v14 main_v214 (mulf),
    unary main_v214 main_v215 (broadcastInDim S50000x1 ![0] bcast_S50000_S50000x1_0),
    unary main_v215 main_v216 (broadcastInDim S50000x64 ![0, 1] bcast_S50000x1_S50000x64_0_1),
    binary main_v179 main_v216 main_v217 (mulf),
    binary main_v213 main_v217 main_v218 (addf),
    binary main_v175 main_arg22 main_v219 ((fun l r => Host.dotGeneral dot_S50000x64_S64x128_S50000x128_1_0_0_1_n_n none l r)),
    unary main_arg23 main_v220 (broadcastInDim S1x128 ![1] bcast_S128_S1x128_1),
    unary main_v220 main_v221 (broadcastInDim S50000x128 ![0, 1] bcast_S1x128_S50000x128_0_1),
    binary main_v219 main_v221 main_v222 (addf),
    unary main_v222 main_v223 (Host.tanh),
    binary main_v223 main_arg24 main_v224 ((fun l r => Host.dotGeneral dot_S50000x128_S128x1_S50000x1_1_0_0_1_n_n none l r)),
    unary main_arg25 main_v225 (broadcastInDim S1x1 ![1] bcast_S1_S1x1_1),
    unary main_v225 main_v226 (broadcastInDim S50000x1 ![0, 1] bcast_S1x1_S50000x1_0_1),
    binary main_v224 main_v226 main_v227 (addf),
    nullary main_cst_40 (constant S_ .f32 0xFF800000#32),
    binary main_v227 main_cst_40 main_v228 ((fun x v => Host.reduce FloatOps.maximumf x v reducesTo_S50000x1_S1_d0 h_S_)),
    nullary main_cst_41 (constant S_ .f32 0xFF800000#32),
    unary main_cst_41 main_v229 (broadcastInDim S1 ![] bcast_S_S1),
    binary main_v229 main_v228 main_v230 (maximumf),
    unary main_v230 main_v231 (broadcastInDim S1x1 ![1] bcast_S1_S1x1_1),
    unary main_v231 main_v232 (broadcastInDim S50000x1 ![0, 1] bcast_S1x1_S50000x1_0_1),
    binary main_v227 main_v232 main_v233 (subf),
    unary main_v233 main_v234 (Host.exp),
    nullary main_cst_42 (constant S_ .f32 0x00000000#32),
    binary main_v234 main_cst_42 main_v235 ((fun x v => Host.reduceAdd x v reducesTo_S50000x1_S1_d0 h_S_)),
    unary main_v235 main_v236 (broadcastInDim S1x1 ![1] bcast_S1_S1x1_1),
    unary main_v236 main_v237 (broadcastInDim S50000x1 ![0, 1] bcast_S1x1_S50000x1_0_1),
    binary main_v234 main_v237 main_v238 (Host.divf),
    unary main_v238 main_v239 (broadcastInDim S50000x64 ![0, 1] bcast_S50000x1_S50000x64_0_1),
    binary main_v175 main_v239 main_v240 (mulf),
    nullary main_cst_43 (constant S_ .f32 0x00000000#32),
    unary main_cst_43 main_v241 (broadcastInDim S64x64 ![] bcast_S_S64x64),
    unary main_arg3 main_v242 (broadcastInDim S50000x1 ![0] bcast_S50000_S50000x1_0),
    ternary main_v241 main_v242 main_v240 main_v243 ((fun x i u => Host.scatterAdd scatter_S64x64_S50000x1_S50000x64_1_0_0_1 x i u)),
    binary main_v243 main_arg26 main_v244 ((fun l r => Host.dotGeneral dot_S64x64_S64x128_S64x128_1_0_0_1_n_n none l r)),
    unary main_arg27 main_v245 (broadcastInDim S1x128 ![1] bcast_S128_S1x128_1),
    unary main_v245 main_v246 (broadcastInDim S64x128 ![0, 1] bcast_S1x128_S64x128_0_1),
    binary main_v244 main_v246 main_v247 (addf),
    TRef.nullary (TRef.of (T := ⟨S_, .f32⟩) main_call2_cst) (constant S_ .f32 0x00000000#32),
    TRef.unary (TRef.of (T := ⟨S_, .f32⟩) main_call2_cst) (TRef.of (T := ⟨S64x128, .f32⟩) main_call2_v0) (broadcastInDim S64x128 ![] bcast_S_S64x128),
    TRef.binary (TRef.of (T := ⟨S64x128, .f32⟩) main_v247) (TRef.of (T := ⟨S64x128, .f32⟩) main_call2_v0) (TRef.of (T := ⟨S64x128, .f32⟩) main_v248) maximumf,
    binary main_v248 main_arg28 main_v249 ((fun l r => Host.dotGeneral dot_S64x128_S128x64_S64x64_1_0_0_1_n_n none l r)),
    unary main_arg29 main_v250 (broadcastInDim S1x64 ![1] bcast_S64_S1x64_1),
    unary main_v250 main_v251 (broadcastInDim S64x64 ![0, 1] bcast_S1x64_S64x64_0_1),
    binary main_v249 main_v251 main_v252 (addf),
    TRef.nullary (TRef.of (T := ⟨S_, .f32⟩) main_call3_cst) (constant S_ .f32 0x00000000#32),
    TRef.unary (TRef.of (T := ⟨S_, .f32⟩) main_call3_cst) (TRef.of (T := ⟨S64x64, .f32⟩) main_call3_v0) (broadcastInDim S64x64 ![] bcast_S_S64x64),
    TRef.binary (TRef.of (T := ⟨S64x64, .f32⟩) main_v252) (TRef.of (T := ⟨S64x64, .f32⟩) main_call3_v0) (TRef.of (T := ⟨S64x64, .f32⟩) main_v253) maximumf ]

set_option maxRecDepth 8192 in
set_option maxHeartbeats 40000000 in

theorem main_part4_eq (c : Dev nD) : main_part4 (F := F) c = seq ops4 := rfl

set_option maxRecDepth 8192 in

theorem ops4_sub : (ops4 : List (HloOp τ sig (Elt F))).Forall fun op => op.bufs ⊆ tcRefs τ sig :=
  ⟨binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def wr4 : List (Ref sig .tc) := [main_v200, main_v201, main_v202, main_v203, main_v204, main_v205, main_v206, main_c_38, main_v207, main_v208, main_c_39, main_v209, main_v210, main_v211, main_v212, main_v213, main_v214, main_v215, main_v216, main_v217, main_v218, main_v219, main_v220, main_v221, main_v222, main_v223, main_v224, main_v225, main_v226, main_v227, main_cst_40, main_v228, main_cst_41, main_v229, main_v230, main_v231, main_v232, main_v233, main_v234, main_cst_42, main_v235, main_v236, main_v237, main_v238, main_v239, main_v240, main_cst_43, main_v241, main_v242, main_v243, main_v244, main_v245, main_v246, main_v247, main_call2_cst, main_call2_v0, main_v248, main_v249, main_v250, main_v251, main_v252, main_call3_cst, main_call3_v0, main_v253]

set_option maxRecDepth 8192 in

theorem writes4 : (ops4 (F := F)).Forall fun op => op.writes ⊆ ((wr4).map (Proc.devRef (τ := τ) .tc)).toFinset := by
  simp only [ops4, List.Forall, StableHlo.nullary_writes, StableHlo.unary_writes, StableHlo.binary_writes,
    StableHlo.ternary_writes, StableHlo.reshape_writes]
  repeat' apply And.intro
  all_goals exact single_sub _ _ (by decide)

theorem pass4 (W : Valuation τ sig (Elt F)) (r : Ref sig .tc) (hr : r ∉ wr4) :
    after (ops4 (F := F)) W (Proc.devRef .tc r) = W (Proc.devRef .tc r) :=
  after_of_writes_sub _ W writes4 hr

theorem argNot4 : ∀ r ∈ argRefs, r ∉ wr4 := by decide

set_option maxHeartbeats 4000000 in

abbrev ops5 : List (HloOp τ sig (Elt F)) :=
  [ binary main_v253 main_arg30 main_v254 ((fun l r => Host.dotGeneral dot_S64x64_S64x6_S64x6_1_0_0_1_n_n none l r)),
    unary main_arg31 main_v255 (broadcastInDim S1x6 ![1] bcast_S6_S1x6_1),
    unary main_v255 main_v256 (broadcastInDim S64x6 ![0, 1] bcast_S1x6_S64x6_0_1),
    binary main_v254 main_v256 main_v257 (addf),
    nullary main_cst_44 (constant S_ .f32 0x3F800000#32),
    unary main_cst_44 main_v258 (broadcastInDim S50000 ![] bcast_S_S50000),
    nullary main_cst_45 (constant S_ .f32 0x00000000#32),
    unary main_cst_45 main_v259 (broadcastInDim S64 ![] bcast_S_S64),
    unary main_arg3 main_v260 (broadcastInDim S50000x1 ![0] bcast_S50000_S50000x1_0),
    ternary main_v259 main_v260 main_v258 main_v261 ((fun x i u => Host.scatterAdd scatter_S64_S50000x1_S50000_n_0_0_1 x i u)),
    nullary main_cst_46 (constant S_ .f32 0x00000000#32),
    unary main_cst_46 main_v262 (broadcastInDim S64x64 ![] bcast_S_S64x64),
    unary main_arg3 main_v263 (broadcastInDim S50000x1 ![0] bcast_S50000_S50000x1_0),
    ternary main_v262 main_v263 main_v175 main_v264 ((fun x i u => Host.scatterAdd scatter_S64x64_S50000x1_S50000x64_1_0_0_1 x i u)),
    nullary main_cst_47 (constant S_ .f32 0x3F800000#32),
    unary main_cst_47 main_v265 (broadcastInDim S64 ![] bcast_S_S64),
    binary main_v261 main_v265 main_v266 (maximumf),
    unary main_v266 main_v267 (broadcastInDim S64x1 ![0] bcast_S64_S64x1_0),
    unary main_v267 main_v268 (broadcastInDim S64x64 ![0, 1] bcast_S64x1_S64x64_0_1),
    binary main_v264 main_v268 main_v269 (Host.divf),
    binary main_v269 main_arg32 main_v270 ((fun l r => Host.dotGeneral dot_S64x64_S64x64_S64x64_1_0_0_1_n_n none l r)),
    unary main_arg33 main_v271 (broadcastInDim S1x64 ![1] bcast_S64_S1x64_1),
    unary main_v271 main_v272 (broadcastInDim S64x64 ![0, 1] bcast_S1x64_S64x64_0_1),
    binary main_v270 main_v272 main_v273 (addf),
    TRef.nullary (TRef.of (T := ⟨S_, .f32⟩) main_call4_cst) (constant S_ .f32 0x00000000#32),
    TRef.unary (TRef.of (T := ⟨S_, .f32⟩) main_call4_cst) (TRef.of (T := ⟨S64x64, .f32⟩) main_call4_v0) (broadcastInDim S64x64 ![] bcast_S_S64x64),
    TRef.binary (TRef.of (T := ⟨S64x64, .f32⟩) main_v273) (TRef.of (T := ⟨S64x64, .f32⟩) main_call4_v0) (TRef.of (T := ⟨S64x64, .f32⟩) main_v274) maximumf,
    binary main_v274 main_arg34 main_v275 ((fun l r => Host.dotGeneral dot_S64x64_S64x1_S64x1_1_0_0_1_n_n none l r)),
    unary main_arg35 main_v276 (broadcastInDim S1x1 ![1] bcast_S1_S1x1_1),
    unary main_v276 main_v277 (broadcastInDim S64x1 ![0, 1] bcast_S1x1_S64x1_0_1),
    binary main_v275 main_v277 main_v278 (addf),
    unary main_v278 main_v279 (Host.negf),
    unary main_v279 main_v280 (Host.exp),
    nullary main_cst_48 (constant S_ .f32 0x3F800000#32),
    unary main_cst_48 main_v281 (broadcastInDim S64x1 ![] bcast_S_S64x1),
    binary main_v281 main_v280 main_v282 (addf),
    nullary main_cst_49 (constant S_ .f32 0x3F800000#32),
    unary main_cst_49 main_v283 (broadcastInDim S64x1 ![] bcast_S_S64x1),
    binary main_v283 main_v282 main_v284 (Host.divf) ]

set_option maxRecDepth 8192 in
set_option maxHeartbeats 40000000 in

theorem main_part5_eq (c : Dev nD) : main_part5 (F := F) c = seq ops5 := rfl

set_option maxRecDepth 8192 in

theorem ops5_sub : (ops5 : List (HloOp τ sig (Elt F))).Forall fun op => op.bufs ⊆ tcRefs τ sig :=
  ⟨binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 8192 in

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def wr5 : List (Ref sig .tc) := [main_v254, main_v255, main_v256, main_v257, main_cst_44, main_v258, main_cst_45, main_v259, main_v260, main_v261, main_cst_46, main_v262, main_v263, main_v264, main_cst_47, main_v265, main_v266, main_v267, main_v268, main_v269, main_v270, main_v271, main_v272, main_v273, main_call4_cst, main_call4_v0, main_v274, main_v275, main_v276, main_v277, main_v278, main_v279, main_v280, main_cst_48, main_v281, main_v282, main_cst_49, main_v283, main_v284]

set_option maxRecDepth 8192 in

theorem writes5 : (ops5 (F := F)).Forall fun op => op.writes ⊆ ((wr5).map (Proc.devRef (τ := τ) .tc)).toFinset := by
  simp only [ops5, List.Forall, StableHlo.nullary_writes, StableHlo.unary_writes, StableHlo.binary_writes,
    StableHlo.ternary_writes, StableHlo.reshape_writes]
  repeat' apply And.intro
  all_goals exact single_sub _ _ (by decide)

theorem pass5 (W : Valuation τ sig (Elt F)) (r : Ref sig .tc) (hr : r ∉ wr5) :
    after (ops5 (F := F)) W (Proc.devRef .tc r) = W (Proc.devRef .tc r) :=
  after_of_writes_sub _ W writes5 hr

theorem argNot5 : ∀ r ∈ argRefs, r ∉ wr5 := by decide

abbrev ops : List (HloOp τ sig (Elt F)) := ops0 ++ (ops1 ++ (ops2 ++ (ops3 ++ (ops4 ++ ops5))))

theorem main_eq (c : Dev nD) : main (F := F) c = seq ops := by
  show (main_part0 (F := F) c >>= fun _ => main_part1 (F := F) c >>= fun _ => main_part2 (F := F) c >>= fun _ =>
      main_part3 (F := F) c >>= fun _ => main_part4 (F := F) c >>= fun _ => main_part5 (F := F) c)
    = seq (ops0 ++ (ops1 ++ (ops2 ++ (ops3 ++ (ops4 ++ ops5)))))
  rw [main_part0_eq, main_part1_eq, main_part2_eq, main_part3_eq, main_part4_eq, main_part5_eq,
    seq_append, seq_append, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

theorem ops_forall {P : HloOp τ sig (Elt F) → Prop} (h0 : (ops0 (F := F)).Forall P) (h1 : (ops1 (F := F)).Forall P)
    (h2 : (ops2 (F := F)).Forall P) (h3 : (ops3 (F := F)).Forall P) (h4 : (ops4 (F := F)).Forall P)
    (h5 : (ops5 (F := F)).Forall P) : ∀ op ∈ (ops (F := F)), P op := by
  intro op hop
  have hop' : op ∈ ops0 (F := F) ∨ op ∈ ops1 (F := F) ∨ op ∈ ops2 (F := F) ∨ op ∈ ops3 (F := F) ∨ op ∈ ops4 (F := F) ∨ op ∈ ops5 (F := F) := by
    simpa only [ops, List.mem_append] using hop
  rcases hop' with h | h | h | h | h | h
  · exact List.forall_iff_forall_mem.mp h0 op h
  · exact List.forall_iff_forall_mem.mp h1 op h
  · exact List.forall_iff_forall_mem.mp h2 op h
  · exact List.forall_iff_forall_mem.mp h3 op h
  · exact List.forall_iff_forall_mem.mp h4 op h
  · exact List.forall_iff_forall_mem.mp h5 op h

theorem ops_sub : (ops : List (HloOp τ sig (Elt F))).Forall fun op => op.bufs ⊆ tcRefs τ sig :=
  List.forall_iff_forall_mem.mpr (ops_forall ops0_sub ops1_sub ops2_sub ops3_sub ops4_sub ops5_sub)

theorem ops_fresh : ∀ op ∈ (ops : List (HloOp τ sig (Elt F))), op.fresh = ∅ :=
  ops_forall ops0_fresh ops1_fresh ops2_fresh ops3_fresh ops4_fresh ops5_fresh

theorem after_ops (V : Valuation τ sig (Elt F)) :
    after (ops (F := F)) V = after ops5 (after ops4 (after ops3 (after ops2 (after ops1 (after ops0 V))))) := by
  show after (ops0 ++ (ops1 ++ (ops2 ++ (ops3 ++ (ops4 ++ ops5))))) V = _
  rw [StableHlo.after_append, StableHlo.after_append, StableHlo.after_append, StableHlo.after_append, StableHlo.after_append]

theorem arg_kept (V : Valuation τ sig (Elt F)) (r : Ref sig .tc) (hr : r ∈ argRefs) :
    after (ops (F := F)) V (Proc.devRef .tc r) = V (Proc.devRef .tc r) := by
  rw [after_ops, pass5 _ r (argNot5 r hr), pass4 _ r (argNot4 r hr), pass3 _ r (argNot3 r hr), pass2 _ r (argNot2 r hr),
    pass1 _ r (argNot1 r hr), pass0 _ r (argNot0 r hr)]

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

theorem run_arg (m : (ℓ : Loc nD τ sig) → Buf (Elt F) ℓ) (c : Dev nD) (r : Ref sig .tc) (hr : r ∈ argRefs) :
    after (ops (F := F)) (launchContents m c) (Proc.devRef .tc r) = m ((c.tc : Thread nD τ).loc r) :=
  arg_kept _ r hr

end Cert.ReferenceIdeal.Value

end
-- ==== Proof.RRunStages.lean ====
import proofs.«429700_j86320252715258_2_alg».proof.Proof.RefRead
import proofs.«429700_j86320252715258_2_alg».proof.Proof.RRunOps
import Idealize.ShloMosaic.Lib.StableHlo.Run
import Idealize.ShloMosaic.Lib.Pipeline.Frame

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
variable {x0 : (⟨S50000x16, .f32⟩ : BufTy).Contents (Elt F)}
  {x1 : (⟨S2x1600000, .i32⟩ : BufTy).Contents (Elt F)}
  {x2 : (⟨S1600000, .f32⟩ : BufTy).Contents (Elt F)}
  {x3 : (⟨S50000, .i32⟩ : BufTy).Contents (Elt F)}
  {x4 : (⟨S16x128, .f32⟩ : BufTy).Contents (Elt F)}
  {x5 : (⟨S128, .f32⟩ : BufTy).Contents (Elt F)}
  {x6 : (⟨S128x128, .f32⟩ : BufTy).Contents (Elt F)}
  {x7 : (⟨S128, .f32⟩ : BufTy).Contents (Elt F)}
  {x8 : (⟨S128x128, .f32⟩ : BufTy).Contents (Elt F)}
  {x9 : (⟨S128, .f32⟩ : BufTy).Contents (Elt F)}
  {x10 : (⟨S128x64, .f32⟩ : BufTy).Contents (Elt F)}
  {x11 : (⟨S64, .f32⟩ : BufTy).Contents (Elt F)}
  {x12 : (⟨S128x64, .f32⟩ : BufTy).Contents (Elt F)}
  {x13 : (⟨S64, .f32⟩ : BufTy).Contents (Elt F)}
  {x14 x15 x16 x17 x18 x19 x20 x21 : (⟨S128, .f32⟩ : BufTy).Contents (Elt F)}
  {x22 : (⟨S64x128, .f32⟩ : BufTy).Contents (Elt F)}
  {x23 : (⟨S128, .f32⟩ : BufTy).Contents (Elt F)}
  {x24 : (⟨S128x1, .f32⟩ : BufTy).Contents (Elt F)}
  {x25 : (⟨S1, .f32⟩ : BufTy).Contents (Elt F)}
  {x26 : (⟨S64x128, .f32⟩ : BufTy).Contents (Elt F)}
  {x27 : (⟨S128, .f32⟩ : BufTy).Contents (Elt F)}
  {x28 : (⟨S128x64, .f32⟩ : BufTy).Contents (Elt F)}
  {x29 : (⟨S64, .f32⟩ : BufTy).Contents (Elt F)}
  {x30 : (⟨S64x6, .f32⟩ : BufTy).Contents (Elt F)}
  {x31 : (⟨S6, .f32⟩ : BufTy).Contents (Elt F)}
  {x32 : (⟨S64x64, .f32⟩ : BufTy).Contents (Elt F)}
  {x33 : (⟨S64, .f32⟩ : BufTy).Contents (Elt F)}
  {x34 : (⟨S64x1, .f32⟩ : BufTy).Contents (Elt F)}
  {x35 : (⟨S1, .f32⟩ : BufTy).Contents (Elt F)}

-- What a stretch leaves in a buffer read later is that buffer's stage, whatever the contents on entry, given the arguments in the argument buffers and the earlier stages in the buffers it reads.
set_option maxHeartbeats 4000000 in
theorem c0_main_v22 (W : Valuation τ sig (Elt F))
    (h_main_arg7 : W (Proc.devRef .tc main_arg7) = x7) (h_main_arg6 : W (Proc.devRef .tc main_arg6) = x6) (h_main_arg5 : W (Proc.devRef .tc main_arg5) = x5) (h_main_arg0 : W (Proc.devRef .tc main_arg0) = x0) (h_main_arg4 : W (Proc.devRef .tc main_arg4) = x4)  :
    after (ops0 (F := F)) W (Proc.devRef .tc main_v22) = Read.val_main_v22 (F := F) x0 x4 x5 x6 x7 := by
  after_results_simp
  rw [h_main_arg7, h_main_arg6, h_main_arg5, h_main_arg0, h_main_arg4]
  all_goals (try simp only [TRef.ofBuf, TRef.toBuf, cast_eq])
  all_goals rfl

set_option maxHeartbeats 4000000 in
theorem c0_main_v14 (W : Valuation τ sig (Elt F))
    (h_main_arg2 : W (Proc.devRef .tc main_arg2) = x2) (h_main_arg1 : W (Proc.devRef .tc main_arg1) = x1)  :
    after (ops0 (F := F)) W (Proc.devRef .tc main_v14) = Read.val_main_v14 (F := F) x1 x2 := by
  after_results_simp
  rw [h_main_arg2, h_main_arg1]
  all_goals (try simp only [TRef.ofBuf, TRef.toBuf, cast_eq])
  all_goals rfl

set_option maxHeartbeats 4000000 in
theorem c0_main_v39 (W : Valuation τ sig (Elt F))
      :
    after (ops0 (F := F)) W (Proc.devRef .tc main_v39) = Read.val_main_v39 (F := F) := by
  after_results_simp

  all_goals (try simp only [TRef.ofBuf, TRef.toBuf, cast_eq])
  all_goals rfl

set_option maxHeartbeats 4000000 in
theorem c0_main_v46 (W : Valuation τ sig (Elt F))
    (h_main_arg1 : W (Proc.devRef .tc main_arg1) = x1) (h_main_arg7 : W (Proc.devRef .tc main_arg7) = x7) (h_main_arg6 : W (Proc.devRef .tc main_arg6) = x6) (h_main_arg5 : W (Proc.devRef .tc main_arg5) = x5) (h_main_arg0 : W (Proc.devRef .tc main_arg0) = x0) (h_main_arg4 : W (Proc.devRef .tc main_arg4) = x4)  :
    after (ops0 (F := F)) W (Proc.devRef .tc main_v46) = Read.val_main_v46 (F := F) x0 x1 x4 x5 x6 x7 := by
  after_results_simp
  rw [h_main_arg1, h_main_arg7, h_main_arg6, h_main_arg5, h_main_arg0, h_main_arg4]
  all_goals (try simp only [TRef.ofBuf, TRef.toBuf, cast_eq])
  all_goals rfl

set_option maxHeartbeats 4000000 in
theorem c0_main_v48 (W : Valuation τ sig (Elt F))
    (h_main_arg1 : W (Proc.devRef .tc main_arg1) = x1) (h_main_arg2 : W (Proc.devRef .tc main_arg2) = x2)  :
    after (ops0 (F := F)) W (Proc.devRef .tc main_v48) = Read.val_main_v48 (F := F) x1 x2 := by
  after_results_simp
  rw [h_main_arg1, h_main_arg2]
  all_goals (try simp only [TRef.ofBuf, TRef.toBuf, cast_eq])
  all_goals rfl

set_option maxHeartbeats 4000000 in
theorem c0_main_v3 (W : Valuation τ sig (Elt F))
    (h_main_arg1 : W (Proc.devRef .tc main_arg1) = x1)  :
    after (ops0 (F := F)) W (Proc.devRef .tc main_v3) = Read.val_main_v3 (F := F) x1 := by
  after_results_simp
  rw [h_main_arg1]
  all_goals (try simp only [TRef.ofBuf, TRef.toBuf, cast_eq])
  all_goals rfl

set_option maxHeartbeats 4000000 in
theorem c0_main_v1 (W : Valuation τ sig (Elt F))
    (h_main_arg1 : W (Proc.devRef .tc main_arg1) = x1)  :
    after (ops0 (F := F)) W (Proc.devRef .tc main_v1) = Read.val_main_v1 (F := F) x1 := by
  after_results_simp
  rw [h_main_arg1]
  all_goals (try simp only [TRef.ofBuf, TRef.toBuf, cast_eq])
  all_goals rfl

set_option maxHeartbeats 4000000 in
theorem c1_main_v79 (W : Valuation τ sig (Elt F))
    (h_main_arg9 : W (Proc.devRef .tc main_arg9) = x9) (h_main_arg8 : W (Proc.devRef .tc main_arg8) = x8) (h_main_arg15 : W (Proc.devRef .tc main_arg15) = x15) (h_main_arg14 : W (Proc.devRef .tc main_arg14) = x14) (h_main_arg17 : W (Proc.devRef .tc main_arg17) = x17) (h_main_arg16 : W (Proc.devRef .tc main_arg16) = x16) (h_main_v22 : W (Proc.devRef .tc main_v22) = Read.val_main_v22 (F := F) x0 x4 x5 x6 x7) (h_main_v14 : W (Proc.devRef .tc main_v14) = Read.val_main_v14 (F := F) x1 x2) (h_main_v39 : W (Proc.devRef .tc main_v39) = Read.val_main_v39 (F := F)) (h_main_v46 : W (Proc.devRef .tc main_v46) = Read.val_main_v46 (F := F) x0 x1 x4 x5 x6 x7) (h_main_v48 : W (Proc.devRef .tc main_v48) = Read.val_main_v48 (F := F) x1 x2) (h_main_v3 : W (Proc.devRef .tc main_v3) = Read.val_main_v3 (F := F) x1) :
    after (ops1 (F := F)) W (Proc.devRef .tc main_v79) = Read.val_main_v79 (F := F) x0 x1 x2 x4 x5 x6 x7 x8 x9 x14 x15 x16 x17 := by
  after_results_simp
  rw [h_main_arg9, h_main_arg8, h_main_arg15, h_main_arg14, h_main_arg17, h_main_arg16, h_main_v22, h_main_v14, h_main_v39, h_main_v46, h_main_v48, h_main_v3]
  all_goals (try simp only [TRef.ofBuf, TRef.toBuf, cast_eq])
  all_goals rfl

set_option maxHeartbeats 4000000 in
theorem c1_main_v96 (W : Valuation τ sig (Elt F))
      :
    after (ops1 (F := F)) W (Proc.devRef .tc main_v96) = Read.val_main_v96 (F := F) := by
  after_results_simp

  all_goals (try simp only [TRef.ofBuf, TRef.toBuf, cast_eq])
  all_goals rfl

set_option maxHeartbeats 4000000 in
theorem c1_main_v95 (W : Valuation τ sig (Elt F))
    (h_main_arg2 : W (Proc.devRef .tc main_arg2) = x2) (h_main_v14 : W (Proc.devRef .tc main_v14) = Read.val_main_v14 (F := F) x1 x2) (h_main_v3 : W (Proc.devRef .tc main_v3) = Read.val_main_v3 (F := F) x1) (h_main_v1 : W (Proc.devRef .tc main_v1) = Read.val_main_v1 (F := F) x1) :
    after (ops1 (F := F)) W (Proc.devRef .tc main_v95) = Read.val_main_v95 (F := F) x1 x2 := by
  after_results_simp
  rw [h_main_arg2, h_main_v14, h_main_v3, h_main_v1]
  all_goals (try simp only [TRef.ofBuf, TRef.toBuf, cast_eq])
  all_goals rfl

set_option maxHeartbeats 4000000 in
theorem c1_main_v98 (W : Valuation τ sig (Elt F))
     (h_main_v1 : W (Proc.devRef .tc main_v1) = Read.val_main_v1 (F := F) x1) :
    after (ops1 (F := F)) W (Proc.devRef .tc main_v98) = Read.val_main_v98 (F := F) x1 := by
  after_results_simp
  rw [h_main_v1]
  all_goals (try simp only [TRef.ofBuf, TRef.toBuf, cast_eq])
  all_goals rfl

set_option maxHeartbeats 4000000 in
theorem c1_main_c_18 (W : Valuation τ sig (Elt F))
      :
    after (ops1 (F := F)) W (Proc.devRef .tc main_c_18) = Read.val_main_c_18 (F := F) := by
  after_results_simp

  all_goals (try simp only [TRef.ofBuf, TRef.toBuf, cast_eq])
  all_goals rfl

set_option maxHeartbeats 4000000 in
theorem c2_main_v136 (W : Valuation τ sig (Elt F))
    (h_main_arg11 : W (Proc.devRef .tc main_arg11) = x11) (h_main_arg10 : W (Proc.devRef .tc main_arg10) = x10) (h_main_arg19 : W (Proc.devRef .tc main_arg19) = x19) (h_main_arg18 : W (Proc.devRef .tc main_arg18) = x18) (h_main_arg21 : W (Proc.devRef .tc main_arg21) = x21) (h_main_arg20 : W (Proc.devRef .tc main_arg20) = x20) (h_main_v79 : W (Proc.devRef .tc main_v79) = Read.val_main_v79 (F := F) x0 x1 x2 x4 x5 x6 x7 x8 x9 x14 x15 x16 x17) (h_main_v14 : W (Proc.devRef .tc main_v14) = Read.val_main_v14 (F := F) x1 x2) (h_main_v96 : W (Proc.devRef .tc main_v96) = Read.val_main_v96 (F := F)) (h_main_v95 : W (Proc.devRef .tc main_v95) = Read.val_main_v95 (F := F) x1 x2) (h_main_v98 : W (Proc.devRef .tc main_v98) = Read.val_main_v98 (F := F) x1) (h_main_v1 : W (Proc.devRef .tc main_v1) = Read.val_main_v1 (F := F) x1) (h_main_c_18 : W (Proc.devRef .tc main_c_18) = Read.val_main_c_18 (F := F)) (h_main_v3 : W (Proc.devRef .tc main_v3) = Read.val_main_v3 (F := F) x1) :
    after (ops2 (F := F)) W (Proc.devRef .tc main_v136) = Read.val_main_v136 (F := F) x0 x1 x2 x4 x5 x6 x7 x8 x9 x10 x11 x14 x15 x16 x17 x18 x19 x20 x21 := by
  after_results_simp
  rw [h_main_arg11, h_main_arg10, h_main_arg19, h_main_arg18, h_main_arg21, h_main_arg20, h_main_v79, h_main_v14, h_main_v96, h_main_v95, h_main_v98, h_main_v1, h_main_c_18, h_main_v3]
  all_goals (try simp only [TRef.ofBuf, TRef.toBuf, cast_eq])
  all_goals rfl

set_option maxHeartbeats 4000000 in
theorem c2_main_v144 (W : Valuation τ sig (Elt F))
    (h_main_arg2 : W (Proc.devRef .tc main_arg2) = x2) (h_main_v14 : W (Proc.devRef .tc main_v14) = Read.val_main_v14 (F := F) x1 x2) (h_main_v1 : W (Proc.devRef .tc main_v1) = Read.val_main_v1 (F := F) x1) :
    after (ops2 (F := F)) W (Proc.devRef .tc main_v144) = Read.val_main_v144 (F := F) x1 x2 := by
  after_results_simp
  rw [h_main_arg2, h_main_v14, h_main_v1]
  all_goals (try simp only [TRef.ofBuf, TRef.toBuf, cast_eq])
  all_goals rfl

set_option maxHeartbeats 4000000 in
theorem c2_main_v151 (W : Valuation τ sig (Elt F))
     (h_main_v14 : W (Proc.devRef .tc main_v14) = Read.val_main_v14 (F := F) x1 x2) (h_main_v3 : W (Proc.devRef .tc main_v3) = Read.val_main_v3 (F := F) x1) :
    after (ops2 (F := F)) W (Proc.devRef .tc main_v151) = Read.val_main_v151 (F := F) x1 x2 := by
  after_results_simp
  rw [h_main_v14, h_main_v3]
  all_goals (try simp only [TRef.ofBuf, TRef.toBuf, cast_eq])
  all_goals rfl

set_option maxHeartbeats 4000000 in
theorem c2_main_v132 (W : Valuation τ sig (Elt F))
    (h_main_arg19 : W (Proc.devRef .tc main_arg19) = x19) (h_main_arg18 : W (Proc.devRef .tc main_arg18) = x18) (h_main_arg21 : W (Proc.devRef .tc main_arg21) = x21) (h_main_arg20 : W (Proc.devRef .tc main_arg20) = x20) (h_main_v79 : W (Proc.devRef .tc main_v79) = Read.val_main_v79 (F := F) x0 x1 x2 x4 x5 x6 x7 x8 x9 x14 x15 x16 x17) (h_main_v14 : W (Proc.devRef .tc main_v14) = Read.val_main_v14 (F := F) x1 x2) (h_main_v96 : W (Proc.devRef .tc main_v96) = Read.val_main_v96 (F := F)) (h_main_v95 : W (Proc.devRef .tc main_v95) = Read.val_main_v95 (F := F) x1 x2) (h_main_v98 : W (Proc.devRef .tc main_v98) = Read.val_main_v98 (F := F) x1) (h_main_v1 : W (Proc.devRef .tc main_v1) = Read.val_main_v1 (F := F) x1) (h_main_c_18 : W (Proc.devRef .tc main_c_18) = Read.val_main_c_18 (F := F)) (h_main_v3 : W (Proc.devRef .tc main_v3) = Read.val_main_v3 (F := F) x1) :
    after (ops2 (F := F)) W (Proc.devRef .tc main_v132) = Read.val_main_v132 (F := F) x0 x1 x2 x4 x5 x6 x7 x8 x9 x14 x15 x16 x17 x18 x19 x20 x21 := by
  after_results_simp
  rw [h_main_arg19, h_main_arg18, h_main_arg21, h_main_arg20, h_main_v79, h_main_v14, h_main_v96, h_main_v95, h_main_v98, h_main_v1, h_main_c_18, h_main_v3]
  all_goals (try simp only [TRef.ofBuf, TRef.toBuf, cast_eq])
  all_goals rfl

set_option maxHeartbeats 4000000 in
theorem c3_main_v175 (W : Valuation τ sig (Elt F))
     (h_main_v136 : W (Proc.devRef .tc main_v136) = Read.val_main_v136 (F := F) x0 x1 x2 x4 x5 x6 x7 x8 x9 x10 x11 x14 x15 x16 x17 x18 x19 x20 x21) (h_main_v14 : W (Proc.devRef .tc main_v14) = Read.val_main_v14 (F := F) x1 x2) (h_main_v144 : W (Proc.devRef .tc main_v144) = Read.val_main_v144 (F := F) x1 x2) (h_main_v151 : W (Proc.devRef .tc main_v151) = Read.val_main_v151 (F := F) x1 x2) (h_main_v1 : W (Proc.devRef .tc main_v1) = Read.val_main_v1 (F := F) x1) (h_main_v3 : W (Proc.devRef .tc main_v3) = Read.val_main_v3 (F := F) x1) :
    after (ops3 (F := F)) W (Proc.devRef .tc main_v175) = Read.val_main_v175 (F := F) x0 x1 x2 x4 x5 x6 x7 x8 x9 x10 x11 x14 x15 x16 x17 x18 x19 x20 x21 := by
  after_results_simp
  rw [h_main_v136, h_main_v14, h_main_v144, h_main_v151, h_main_v1, h_main_v3]
  all_goals (try simp only [TRef.ofBuf, TRef.toBuf, cast_eq])
  all_goals rfl

set_option maxHeartbeats 4000000 in
theorem c3_main_v179 (W : Valuation τ sig (Elt F))
    (h_main_arg13 : W (Proc.devRef .tc main_arg13) = x13) (h_main_arg12 : W (Proc.devRef .tc main_arg12) = x12) (h_main_v132 : W (Proc.devRef .tc main_v132) = Read.val_main_v132 (F := F) x0 x1 x2 x4 x5 x6 x7 x8 x9 x14 x15 x16 x17 x18 x19 x20 x21) :
    after (ops3 (F := F)) W (Proc.devRef .tc main_v179) = Read.val_main_v179 (F := F) x0 x1 x2 x4 x5 x6 x7 x8 x9 x12 x13 x14 x15 x16 x17 x18 x19 x20 x21 := by
  after_results_simp
  rw [h_main_arg13, h_main_arg12, h_main_v132]
  all_goals (try simp only [TRef.ofBuf, TRef.toBuf, cast_eq])
  all_goals rfl

set_option maxHeartbeats 4000000 in
theorem c3_main_v196 (W : Valuation τ sig (Elt F))
      :
    after (ops3 (F := F)) W (Proc.devRef .tc main_v196) = Read.val_main_v196 (F := F) := by
  after_results_simp

  all_goals (try simp only [TRef.ofBuf, TRef.toBuf, cast_eq])
  all_goals rfl

set_option maxHeartbeats 4000000 in
theorem c3_main_v195 (W : Valuation τ sig (Elt F))
    (h_main_arg2 : W (Proc.devRef .tc main_arg2) = x2) (h_main_v14 : W (Proc.devRef .tc main_v14) = Read.val_main_v14 (F := F) x1 x2) (h_main_v3 : W (Proc.devRef .tc main_v3) = Read.val_main_v3 (F := F) x1) (h_main_v1 : W (Proc.devRef .tc main_v1) = Read.val_main_v1 (F := F) x1) :
    after (ops3 (F := F)) W (Proc.devRef .tc main_v195) = Read.val_main_v195 (F := F) x1 x2 := by
  after_results_simp
  rw [h_main_arg2, h_main_v14, h_main_v3, h_main_v1]
  all_goals (try simp only [TRef.ofBuf, TRef.toBuf, cast_eq])
  all_goals rfl

set_option maxHeartbeats 4000000 in
theorem c3_main_v198 (W : Valuation τ sig (Elt F))
     (h_main_v1 : W (Proc.devRef .tc main_v1) = Read.val_main_v1 (F := F) x1) :
    after (ops3 (F := F)) W (Proc.devRef .tc main_v198) = Read.val_main_v198 (F := F) x1 := by
  after_results_simp
  rw [h_main_v1]
  all_goals (try simp only [TRef.ofBuf, TRef.toBuf, cast_eq])
  all_goals rfl

set_option maxHeartbeats 4000000 in
theorem c3_main_v199 (W : Valuation τ sig (Elt F))
      :
    after (ops3 (F := F)) W (Proc.devRef .tc main_v199) = Read.val_main_v199 (F := F) := by
  after_results_simp

  all_goals (try simp only [TRef.ofBuf, TRef.toBuf, cast_eq])
  all_goals rfl

set_option maxHeartbeats 4000000 in
theorem c4_main_v253 (W : Valuation τ sig (Elt F))
    (h_main_arg29 : W (Proc.devRef .tc main_arg29) = x29) (h_main_arg28 : W (Proc.devRef .tc main_arg28) = x28) (h_main_arg27 : W (Proc.devRef .tc main_arg27) = x27) (h_main_arg26 : W (Proc.devRef .tc main_arg26) = x26) (h_main_arg25 : W (Proc.devRef .tc main_arg25) = x25) (h_main_arg24 : W (Proc.devRef .tc main_arg24) = x24) (h_main_arg23 : W (Proc.devRef .tc main_arg23) = x23) (h_main_arg22 : W (Proc.devRef .tc main_arg22) = x22) (h_main_arg3 : W (Proc.devRef .tc main_arg3) = x3) (h_main_v175 : W (Proc.devRef .tc main_v175) = Read.val_main_v175 (F := F) x0 x1 x2 x4 x5 x6 x7 x8 x9 x10 x11 x14 x15 x16 x17 x18 x19 x20 x21) :
    after (ops4 (F := F)) W (Proc.devRef .tc main_v253) = Read.val_main_v253 (F := F) x0 x1 x2 x3 x4 x5 x6 x7 x8 x9 x10 x11 x14 x15 x16 x17 x18 x19 x20 x21 x22 x23 x24 x25 x26 x27 x28 x29 := by
  after_results_simp
  rw [h_main_arg29, h_main_arg28, h_main_arg27, h_main_arg26, h_main_arg25, h_main_arg24, h_main_arg23, h_main_arg22, h_main_arg3, h_main_v175]
  all_goals (try simp only [TRef.ofBuf, TRef.toBuf, cast_eq])
  all_goals rfl

set_option maxHeartbeats 4000000 in
theorem c4_main_v218 (W : Valuation τ sig (Elt F))
     (h_main_v179 : W (Proc.devRef .tc main_v179) = Read.val_main_v179 (F := F) x0 x1 x2 x4 x5 x6 x7 x8 x9 x12 x13 x14 x15 x16 x17 x18 x19 x20 x21) (h_main_v14 : W (Proc.devRef .tc main_v14) = Read.val_main_v14 (F := F) x1 x2) (h_main_v196 : W (Proc.devRef .tc main_v196) = Read.val_main_v196 (F := F)) (h_main_v195 : W (Proc.devRef .tc main_v195) = Read.val_main_v195 (F := F) x1 x2) (h_main_v198 : W (Proc.devRef .tc main_v198) = Read.val_main_v198 (F := F) x1) (h_main_v1 : W (Proc.devRef .tc main_v1) = Read.val_main_v1 (F := F) x1) (h_main_v199 : W (Proc.devRef .tc main_v199) = Read.val_main_v199 (F := F)) (h_main_v3 : W (Proc.devRef .tc main_v3) = Read.val_main_v3 (F := F) x1) :
    after (ops4 (F := F)) W (Proc.devRef .tc main_v218) = Read.val_main_v218 (F := F) x0 x1 x2 x4 x5 x6 x7 x8 x9 x12 x13 x14 x15 x16 x17 x18 x19 x20 x21 := by
  after_results_simp
  rw [h_main_v179, h_main_v14, h_main_v196, h_main_v195, h_main_v198, h_main_v1, h_main_v199, h_main_v3]
  all_goals (try simp only [TRef.ofBuf, TRef.toBuf, cast_eq])
  all_goals rfl

set_option maxHeartbeats 4000000 in
theorem c5_main_v257 (W : Valuation τ sig (Elt F))
    (h_main_arg31 : W (Proc.devRef .tc main_arg31) = x31) (h_main_arg30 : W (Proc.devRef .tc main_arg30) = x30) (h_main_v253 : W (Proc.devRef .tc main_v253) = Read.val_main_v253 (F := F) x0 x1 x2 x3 x4 x5 x6 x7 x8 x9 x10 x11 x14 x15 x16 x17 x18 x19 x20 x21 x22 x23 x24 x25 x26 x27 x28 x29) :
    after (ops5 (F := F)) W (Proc.devRef .tc main_v257) = Read.val_main_v257 (F := F) x0 x1 x2 x3 x4 x5 x6 x7 x8 x9 x10 x11 x14 x15 x16 x17 x18 x19 x20 x21 x22 x23 x24 x25 x26 x27 x28 x29 x30 x31 := by
  after_results_simp
  rw [h_main_arg31, h_main_arg30, h_main_v253]
  all_goals (try simp only [TRef.ofBuf, TRef.toBuf, cast_eq])
  all_goals rfl

set_option maxHeartbeats 4000000 in
theorem c5_main_v284 (W : Valuation τ sig (Elt F))
    (h_main_arg35 : W (Proc.devRef .tc main_arg35) = x35) (h_main_arg34 : W (Proc.devRef .tc main_arg34) = x34) (h_main_arg33 : W (Proc.devRef .tc main_arg33) = x33) (h_main_arg32 : W (Proc.devRef .tc main_arg32) = x32) (h_main_arg3 : W (Proc.devRef .tc main_arg3) = x3) (h_main_v175 : W (Proc.devRef .tc main_v175) = Read.val_main_v175 (F := F) x0 x1 x2 x4 x5 x6 x7 x8 x9 x10 x11 x14 x15 x16 x17 x18 x19 x20 x21) :
    after (ops5 (F := F)) W (Proc.devRef .tc main_v284) = Read.val_main_v284 (F := F) x0 x1 x2 x3 x4 x5 x6 x7 x8 x9 x10 x11 x14 x15 x16 x17 x18 x19 x20 x21 x32 x33 x34 x35 := by
  after_results_simp
  rw [h_main_arg35, h_main_arg34, h_main_arg33, h_main_arg32, h_main_arg3, h_main_v175]
  all_goals (try simp only [TRef.ofBuf, TRef.toBuf, cast_eq])
  all_goals rfl

variable (m : (ℓ : Loc nD τ sig) → Buf (Elt F) ℓ) (c : Dev nD)

abbrev arg (r : Ref sig .tc) := m ((c.tc : Thread nD τ).loc r)

def W0 : Valuation τ sig (Elt F) := launchContents m c
def W1 : Valuation τ sig (Elt F) := after (ops0 (F := F)) (W0 m c)
def W2 : Valuation τ sig (Elt F) := after (ops1 (F := F)) (W1 m c)
def W3 : Valuation τ sig (Elt F) := after (ops2 (F := F)) (W2 m c)
def W4 : Valuation τ sig (Elt F) := after (ops3 (F := F)) (W3 m c)
def W5 : Valuation τ sig (Elt F) := after (ops4 (F := F)) (W4 m c)
def W6 : Valuation τ sig (Elt F) := after (ops5 (F := F)) (W5 m c)

-- No stretch writes an argument buffer: at every boundary it holds its launch contents.
theorem W0_arg (r : Ref sig .tc) : W0 m c (Proc.devRef .tc r) = arg m c r := rfl
theorem W1_arg (r : Ref sig .tc) (hr : r ∈ argRefs) : W1 m c (Proc.devRef .tc r) = arg m c r :=
  (pass0 (W0 m c) r (argNot0 r hr)).trans (W0_arg m c r)
theorem W2_arg (r : Ref sig .tc) (hr : r ∈ argRefs) : W2 m c (Proc.devRef .tc r) = arg m c r :=
  (pass1 (W1 m c) r (argNot1 r hr)).trans (W1_arg m c r hr)
theorem W3_arg (r : Ref sig .tc) (hr : r ∈ argRefs) : W3 m c (Proc.devRef .tc r) = arg m c r :=
  (pass2 (W2 m c) r (argNot2 r hr)).trans (W2_arg m c r hr)
theorem W4_arg (r : Ref sig .tc) (hr : r ∈ argRefs) : W4 m c (Proc.devRef .tc r) = arg m c r :=
  (pass3 (W3 m c) r (argNot3 r hr)).trans (W3_arg m c r hr)
theorem W5_arg (r : Ref sig .tc) (hr : r ∈ argRefs) : W5 m c (Proc.devRef .tc r) = arg m c r :=
  (pass4 (W4 m c) r (argNot4 r hr)).trans (W4_arg m c r hr)

theorem W1_main_v22 : W1 m c (Proc.devRef .tc main_v22) = Read.val_main_v22 (F := F) (arg m c main_arg0) (arg m c main_arg4) (arg m c main_arg5) (arg m c main_arg6) (arg m c main_arg7) :=
  c0_main_v22 (W0 m c) (W0_arg m c main_arg7) (W0_arg m c main_arg6) (W0_arg m c main_arg5) (W0_arg m c main_arg0) (W0_arg m c main_arg4)
theorem W1_main_v14 : W1 m c (Proc.devRef .tc main_v14) = Read.val_main_v14 (F := F) (arg m c main_arg1) (arg m c main_arg2) :=
  c0_main_v14 (W0 m c) (W0_arg m c main_arg2) (W0_arg m c main_arg1)
theorem W1_main_v39 : W1 m c (Proc.devRef .tc main_v39) = Read.val_main_v39 (F := F) :=
  c0_main_v39 (W0 m c)
theorem W1_main_v46 : W1 m c (Proc.devRef .tc main_v46) = Read.val_main_v46 (F := F) (arg m c main_arg0) (arg m c main_arg1) (arg m c main_arg4) (arg m c main_arg5) (arg m c main_arg6) (arg m c main_arg7) :=
  c0_main_v46 (W0 m c) (W0_arg m c main_arg1) (W0_arg m c main_arg7) (W0_arg m c main_arg6) (W0_arg m c main_arg5) (W0_arg m c main_arg0) (W0_arg m c main_arg4)
theorem W1_main_v48 : W1 m c (Proc.devRef .tc main_v48) = Read.val_main_v48 (F := F) (arg m c main_arg1) (arg m c main_arg2) :=
  c0_main_v48 (W0 m c) (W0_arg m c main_arg1) (W0_arg m c main_arg2)
theorem W1_main_v3 : W1 m c (Proc.devRef .tc main_v3) = Read.val_main_v3 (F := F) (arg m c main_arg1) :=
  c0_main_v3 (W0 m c) (W0_arg m c main_arg1)
theorem W1_main_v1 : W1 m c (Proc.devRef .tc main_v1) = Read.val_main_v1 (F := F) (arg m c main_arg1) :=
  c0_main_v1 (W0 m c) (W0_arg m c main_arg1)

theorem W2_main_v79 : W2 m c (Proc.devRef .tc main_v79) = Read.val_main_v79 (F := F) (arg m c main_arg0) (arg m c main_arg1) (arg m c main_arg2) (arg m c main_arg4) (arg m c main_arg5) (arg m c main_arg6) (arg m c main_arg7) (arg m c main_arg8) (arg m c main_arg9) (arg m c main_arg14) (arg m c main_arg15) (arg m c main_arg16) (arg m c main_arg17) :=
  c1_main_v79 (W1 m c) (W1_arg m c main_arg9 (by decide)) (W1_arg m c main_arg8 (by decide)) (W1_arg m c main_arg15 (by decide)) (W1_arg m c main_arg14 (by decide)) (W1_arg m c main_arg17 (by decide)) (W1_arg m c main_arg16 (by decide)) (W1_main_v22 m c) (W1_main_v14 m c) (W1_main_v39 m c) (W1_main_v46 m c) (W1_main_v48 m c) (W1_main_v3 m c)
theorem W2_main_v14 : W2 m c (Proc.devRef .tc main_v14) = Read.val_main_v14 (F := F) (arg m c main_arg1) (arg m c main_arg2) :=
  (pass1 (W1 m c) main_v14 (by decide)).trans (W1_main_v14 m c)
theorem W2_main_v96 : W2 m c (Proc.devRef .tc main_v96) = Read.val_main_v96 (F := F) :=
  c1_main_v96 (W1 m c)
theorem W2_main_v95 : W2 m c (Proc.devRef .tc main_v95) = Read.val_main_v95 (F := F) (arg m c main_arg1) (arg m c main_arg2) :=
  c1_main_v95 (W1 m c) (W1_arg m c main_arg2 (by decide)) (W1_main_v14 m c) (W1_main_v3 m c) (W1_main_v1 m c)
theorem W2_main_v98 : W2 m c (Proc.devRef .tc main_v98) = Read.val_main_v98 (F := F) (arg m c main_arg1) :=
  c1_main_v98 (W1 m c) (W1_main_v1 m c)
theorem W2_main_v1 : W2 m c (Proc.devRef .tc main_v1) = Read.val_main_v1 (F := F) (arg m c main_arg1) :=
  (pass1 (W1 m c) main_v1 (by decide)).trans (W1_main_v1 m c)
theorem W2_main_c_18 : W2 m c (Proc.devRef .tc main_c_18) = Read.val_main_c_18 (F := F) :=
  c1_main_c_18 (W1 m c)
theorem W2_main_v3 : W2 m c (Proc.devRef .tc main_v3) = Read.val_main_v3 (F := F) (arg m c main_arg1) :=
  (pass1 (W1 m c) main_v3 (by decide)).trans (W1_main_v3 m c)

theorem W3_main_v136 : W3 m c (Proc.devRef .tc main_v136) = Read.val_main_v136 (F := F) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) :=
  c2_main_v136 (W2 m c) (W2_arg m c main_arg11 (by decide)) (W2_arg m c main_arg10 (by decide)) (W2_arg m c main_arg19 (by decide)) (W2_arg m c main_arg18 (by decide)) (W2_arg m c main_arg21 (by decide)) (W2_arg m c main_arg20 (by decide)) (W2_main_v79 m c) (W2_main_v14 m c) (W2_main_v96 m c) (W2_main_v95 m c) (W2_main_v98 m c) (W2_main_v1 m c) (W2_main_c_18 m c) (W2_main_v3 m c)
theorem W3_main_v14 : W3 m c (Proc.devRef .tc main_v14) = Read.val_main_v14 (F := F) (arg m c main_arg1) (arg m c main_arg2) :=
  (pass2 (W2 m c) main_v14 (by decide)).trans (W2_main_v14 m c)
theorem W3_main_v144 : W3 m c (Proc.devRef .tc main_v144) = Read.val_main_v144 (F := F) (arg m c main_arg1) (arg m c main_arg2) :=
  c2_main_v144 (W2 m c) (W2_arg m c main_arg2 (by decide)) (W2_main_v14 m c) (W2_main_v1 m c)
theorem W3_main_v151 : W3 m c (Proc.devRef .tc main_v151) = Read.val_main_v151 (F := F) (arg m c main_arg1) (arg m c main_arg2) :=
  c2_main_v151 (W2 m c) (W2_main_v14 m c) (W2_main_v3 m c)
theorem W3_main_v1 : W3 m c (Proc.devRef .tc main_v1) = Read.val_main_v1 (F := F) (arg m c main_arg1) :=
  (pass2 (W2 m c) main_v1 (by decide)).trans (W2_main_v1 m c)
theorem W3_main_v3 : W3 m c (Proc.devRef .tc main_v3) = Read.val_main_v3 (F := F) (arg m c main_arg1) :=
  (pass2 (W2 m c) main_v3 (by decide)).trans (W2_main_v3 m c)
theorem W3_main_v132 : W3 m c (Proc.devRef .tc main_v132) = Read.val_main_v132 (F := F) (arg m c main_arg0) (arg m c main_arg1) (arg m c main_arg2) (arg m c main_arg4) (arg m c main_arg5) (arg m c main_arg6) (arg m c main_arg7) (arg m c main_arg8) (arg m c main_arg9) (arg m c main_arg14) (arg m c main_arg15) (arg m c main_arg16) (arg m c main_arg17) (arg m c main_arg18) (arg m c main_arg19) (arg m c main_arg20) (arg m c main_arg21) :=
  c2_main_v132 (W2 m c) (W2_arg m c main_arg19 (by decide)) (W2_arg m c main_arg18 (by decide)) (W2_arg m c main_arg21 (by decide)) (W2_arg m c main_arg20 (by decide)) (W2_main_v79 m c) (W2_main_v14 m c) (W2_main_v96 m c) (W2_main_v95 m c) (W2_main_v98 m c) (W2_main_v1 m c) (W2_main_c_18 m c) (W2_main_v3 m c)

theorem W4_main_v175 : W4 m c (Proc.devRef .tc main_v175) = Read.val_main_v175 (F := F) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) :=
  c3_main_v175 (W3 m c) (W3_main_v136 m c) (W3_main_v14 m c) (W3_main_v144 m c) (W3_main_v151 m c) (W3_main_v1 m c) (W3_main_v3 m c)
theorem W4_main_v179 : W4 m c (Proc.devRef .tc main_v179) = Read.val_main_v179 (F := F) (arg m c main_arg0) (arg m c main_arg1) (arg m c main_arg2) (arg m c main_arg4) (arg m c main_arg5) (arg m c main_arg6) (arg m c main_arg7) (arg m c main_arg8) (arg m c main_arg9) (arg m c main_arg12) (arg m c main_arg13) (arg m c main_arg14) (arg m c main_arg15) (arg m c main_arg16) (arg m c main_arg17) (arg m c main_arg18) (arg m c main_arg19) (arg m c main_arg20) (arg m c main_arg21) :=
  c3_main_v179 (W3 m c) (W3_arg m c main_arg13 (by decide)) (W3_arg m c main_arg12 (by decide)) (W3_main_v132 m c)
theorem W4_main_v14 : W4 m c (Proc.devRef .tc main_v14) = Read.val_main_v14 (F := F) (arg m c main_arg1) (arg m c main_arg2) :=
  (pass3 (W3 m c) main_v14 (by decide)).trans (W3_main_v14 m c)
theorem W4_main_v196 : W4 m c (Proc.devRef .tc main_v196) = Read.val_main_v196 (F := F) :=
  c3_main_v196 (W3 m c)
theorem W4_main_v195 : W4 m c (Proc.devRef .tc main_v195) = Read.val_main_v195 (F := F) (arg m c main_arg1) (arg m c main_arg2) :=
  c3_main_v195 (W3 m c) (W3_arg m c main_arg2 (by decide)) (W3_main_v14 m c) (W3_main_v3 m c) (W3_main_v1 m c)
theorem W4_main_v198 : W4 m c (Proc.devRef .tc main_v198) = Read.val_main_v198 (F := F) (arg m c main_arg1) :=
  c3_main_v198 (W3 m c) (W3_main_v1 m c)
theorem W4_main_v1 : W4 m c (Proc.devRef .tc main_v1) = Read.val_main_v1 (F := F) (arg m c main_arg1) :=
  (pass3 (W3 m c) main_v1 (by decide)).trans (W3_main_v1 m c)
theorem W4_main_v199 : W4 m c (Proc.devRef .tc main_v199) = Read.val_main_v199 (F := F) :=
  c3_main_v199 (W3 m c)
theorem W4_main_v3 : W4 m c (Proc.devRef .tc main_v3) = Read.val_main_v3 (F := F) (arg m c main_arg1) :=
  (pass3 (W3 m c) main_v3 (by decide)).trans (W3_main_v3 m c)

theorem W5_main_v253 : W5 m c (Proc.devRef .tc main_v253) = Read.val_main_v253 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) :=
  c4_main_v253 (W4 m c) (W4_arg m c main_arg29 (by decide)) (W4_arg m c main_arg28 (by decide)) (W4_arg m c main_arg27 (by decide)) (W4_arg m c main_arg26 (by decide)) (W4_arg m c main_arg25 (by decide)) (W4_arg m c main_arg24 (by decide)) (W4_arg m c main_arg23 (by decide)) (W4_arg m c main_arg22 (by decide)) (W4_arg m c main_arg3 (by decide)) (W4_main_v175 m c)
theorem W5_main_v175 : W5 m c (Proc.devRef .tc main_v175) = Read.val_main_v175 (F := F) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) :=
  (pass4 (W4 m c) main_v175 (by decide)).trans (W4_main_v175 m c)
theorem W5_main_v218 : W5 m c (Proc.devRef .tc main_v218) = Read.val_main_v218 (F := F) (arg m c main_arg0) (arg m c main_arg1) (arg m c main_arg2) (arg m c main_arg4) (arg m c main_arg5) (arg m c main_arg6) (arg m c main_arg7) (arg m c main_arg8) (arg m c main_arg9) (arg m c main_arg12) (arg m c main_arg13) (arg m c main_arg14) (arg m c main_arg15) (arg m c main_arg16) (arg m c main_arg17) (arg m c main_arg18) (arg m c main_arg19) (arg m c main_arg20) (arg m c main_arg21) :=
  c4_main_v218 (W4 m c) (W4_main_v179 m c) (W4_main_v14 m c) (W4_main_v196 m c) (W4_main_v195 m c) (W4_main_v198 m c) (W4_main_v1 m c) (W4_main_v199 m c) (W4_main_v3 m c)

theorem W6_main_v257 : W6 m c (Proc.devRef .tc main_v257) = Read.val_main_v257 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31) :=
  c5_main_v257 (W5 m c) (W5_arg m c main_arg31 (by decide)) (W5_arg m c main_arg30 (by decide)) (W5_main_v253 m c)
theorem W6_main_v175 : W6 m c (Proc.devRef .tc main_v175) = Read.val_main_v175 (F := F) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) :=
  (pass5 (W5 m c) main_v175 (by decide)).trans (W5_main_v175 m c)
theorem W6_main_v218 : W6 m c (Proc.devRef .tc main_v218) = Read.val_main_v218 (F := F) (arg m c main_arg0) (arg m c main_arg1) (arg m c main_arg2) (arg m c main_arg4) (arg m c main_arg5) (arg m c main_arg6) (arg m c main_arg7) (arg m c main_arg8) (arg m c main_arg9) (arg m c main_arg12) (arg m c main_arg13) (arg m c main_arg14) (arg m c main_arg15) (arg m c main_arg16) (arg m c main_arg17) (arg m c main_arg18) (arg m c main_arg19) (arg m c main_arg20) (arg m c main_arg21) :=
  (pass5 (W5 m c) main_v218 (by decide)).trans (W5_main_v218 m c)
theorem W6_main_v284 : W6 m c (Proc.devRef .tc main_v284) = Read.val_main_v284 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) (arg m c main_arg32) (arg m c main_arg33) (arg m c main_arg34) (arg m c main_arg35) :=
  c5_main_v284 (W5 m c) (W5_arg m c main_arg35 (by decide)) (W5_arg m c main_arg34 (by decide)) (W5_arg m c main_arg33 (by decide)) (W5_arg m c main_arg32 (by decide)) (W5_arg m c main_arg3 (by decide)) (W5_main_v175 m c)

-- The four results after the whole line of operations: the stages chained stretch after stretch from the launch contents.
theorem result_main_v257 : after (ops (F := F)) (launchContents m c) (Proc.devRef .tc main_v257) = Read.val_main_v257 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31) :=
  (congrFun (after_ops (F := F) (launchContents m c)) (Proc.devRef .tc main_v257)).trans (W6_main_v257 m c)

theorem result_main_v175 : after (ops (F := F)) (launchContents m c) (Proc.devRef .tc main_v175) = Read.val_main_v175 (F := F) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) :=
  (congrFun (after_ops (F := F) (launchContents m c)) (Proc.devRef .tc main_v175)).trans (W6_main_v175 m c)

theorem result_main_v218 : after (ops (F := F)) (launchContents m c) (Proc.devRef .tc main_v218) = Read.val_main_v218 (F := F) (arg m c main_arg0) (arg m c main_arg1) (arg m c main_arg2) (arg m c main_arg4) (arg m c main_arg5) (arg m c main_arg6) (arg m c main_arg7) (arg m c main_arg8) (arg m c main_arg9) (arg m c main_arg12) (arg m c main_arg13) (arg m c main_arg14) (arg m c main_arg15) (arg m c main_arg16) (arg m c main_arg17) (arg m c main_arg18) (arg m c main_arg19) (arg m c main_arg20) (arg m c main_arg21) :=
  (congrFun (after_ops (F := F) (launchContents m c)) (Proc.devRef .tc main_v218)).trans (W6_main_v218 m c)

theorem result_main_v284 : after (ops (F := F)) (launchContents m c) (Proc.devRef .tc main_v284) = Read.val_main_v284 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) (arg m c main_arg32) (arg m c main_arg33) (arg m c main_arg34) (arg m c main_arg35) :=
  (congrFun (after_ops (F := F) (launchContents m c)) (Proc.devRef .tc main_v284)).trans (W6_main_v284 m c)

end Cert.ReferenceIdeal.Value

end
-- ==== Proof.RRun.lean ====
import proofs.«429700_j86320252715258_2_alg».proof.Proof.RRunStages

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

-- Every weakly fair execution ends with the four results at their stages of the arguments and every argument buffer unchanged.
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v257) = Cert.ReferenceIdeal.Read.val_main_v257 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31)
      ∧ r.2.mem ((c.tc : Thread nD τ).loc main_v175) = Cert.ReferenceIdeal.Read.val_main_v175 (F := F) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21)
      ∧ r.2.mem ((c.tc : Thread nD τ).loc main_v218) = Cert.ReferenceIdeal.Read.val_main_v218 (F := F) (arg m c main_arg0) (arg m c main_arg1) (arg m c main_arg2) (arg m c main_arg4) (arg m c main_arg5) (arg m c main_arg6) (arg m c main_arg7) (arg m c main_arg8) (arg m c main_arg9) (arg m c main_arg12) (arg m c main_arg13) (arg m c main_arg14) (arg m c main_arg15) (arg m c main_arg16) (arg m c main_arg17) (arg m c main_arg18) (arg m c main_arg19) (arg m c main_arg20) (arg m c main_arg21)
      ∧ r.2.mem ((c.tc : Thread nD τ).loc main_v284) = Cert.ReferenceIdeal.Read.val_main_v284 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) (arg m c main_arg16) (arg m c main_arg17) (arg m c main_arg18) (arg m c main_arg19) (arg m c main_arg20) (arg m c main_arg21) (arg m c main_arg32) (arg m c main_arg33) (arg m c main_arg34) (arg m c main_arg35))
      ∧ ∀ b ∈ argRefs, r.2.mem ((c.tc : Thread nD τ).loc b) = m ((c.tc : Thread nD τ).loc b) :=
  (θ_run defs _ _).mono (fun _ h c => ⟨⟨(h c main_v257).trans (result_main_v257 m c),
      (h c main_v175).trans (result_main_v175 m c), (h c main_v218).trans (result_main_v218 m c),
      (h c main_v284).trans (result_main_v284 m c)⟩, fun b hb => (h c b).trans (run_arg m c b hb)⟩)
    (run_after m ρ)

end Cert.ReferenceIdeal.Value

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (a b : Nat) : Type := (⟨2, ![a, b]⟩ : Shape).Idx → EReal

abbrev Vc (a : Nat) : Type := (⟨1, ![a]⟩ : Shape).Idx → EReal

abbrev Col (n : Nat) : Type := IVec ⟨2, ![n, 1]⟩ 32

def rowOf {p : Nat} (b : Vc p) : Arr 1 p := fun i => b (ix1 (i 1))

def colOf {n : Nat} (d : Vc n) : Arr n 1 := fun i => d (ix1 (i 0))

def lin {n k p : Nat} (x : Arr n k) (W : Arr k p) (b : Arr 1 p) : Arr n p :=
  fun i => (∑ c : Fin k, x (ix2 (i 0) c) * W (ix2 c (i 1))) + b (ix2 0 (i 1))

def mapA {a b : Nat} (f : EReal → EReal) (y : Arr a b) : Arr a b := fun i => f (y i)

def relu {a b : Nat} (y : Arr a b) : Arr a b := mapA (fun v => max v 0) y

def agg {C : Nat} (h : Arr 50000 C) (src dst : Col 1600000) (nrm : Vc 1600000) : Arr 50000 C :=
  fun i => ∑ e ∈ Finset.univ.filter (fun e : Fin 1600000 => (dst (ix2 e 0)).toInt = ((i 0).val : Int)),
    h (ix2 ⟨min (src (ix2 e 0)).toInt.toNat (50000 - 1), by omega⟩ (i 1)) * nrm (ix1 e)

def comb {n C : Nat} (a h : Arr n C) (d : Arr n 1) : Arr n C :=
  fun i => a i + h i * (d (ix2 (i 0) 0) * d (ix2 (i 0) 0))

def eps : EReal := Ideal.ofBits .f32 0x3727C5AC#32

def bn {n C : Nat} (y : Arr n C) (g be rm rv : Arr 1 C) : Arr n C :=
  fun i => max ((y i - rm (ix2 0 (i 1))) * (g (ix2 0 (i 1)) * Ideal.rsqrt (rv (ix2 0 (i 1)) + eps)) + be (ix2 0 (i 1))) 0

def attn {n : Nat} (z : Arr n 64) (Wa1 : Arr 64 128) (ba1 : Arr 1 128) (Wa2 : Arr 128 1) (ba2 : Arr 1 1) : Arr n 1 :=
  lin (mapA Ideal.tanh (lin z Wa1 ba1)) Wa2 ba2

def mulCol {n C : Nat} (z : Arr n C) (a : Arr n 1) : Arr n C := fun i => z i * a (ix2 (i 0) 0)

def seg {C : Nat} (w : Arr 50000 C) (batch : Col 50000) : Arr 64 C :=
  fun i => ∑ r ∈ Finset.univ.filter (fun r : Fin 50000 => (batch (ix2 r 0)).toInt = ((i 0).val : Int)), w (ix2 r (i 1))

def predHead (g : Arr 64 64) (Wc1 : Arr 64 128) (bc1 : Arr 1 128) (Wc2 : Arr 128 64) (bc2 : Arr 1 64)
    (Wc3 : Arr 64 6) (bc3 : Arr 1 6) : Arr 64 6 :=
  lin (relu (lin (relu (lin g Wc1 bc1)) Wc2 bc2)) Wc3 bc3

def noiseHead (zm : Arr 64 64) (Wn1 : Arr 64 64) (bn1 : Arr 1 64) (Wn2 : Arr 64 1) (bn2 : Arr 1 1) : Arr 64 1 :=
  mapA Ideal.logistic (lin (relu (lin zm Wn1 bn1)) Wn2 bn2)

def colsL {n : Nat} (y : Arr n 128) : Arr n 64 := fun i => y (ix2 (i 0) ⟨(i 1).val, by have h : (i 1).val < 64 := (i 1).isLt; omega⟩)
def colsR {n : Nat} (y : Arr n 128) : Arr n 64 := fun i => y (ix2 (i 0) ⟨(i 1).val + 64, by have h : (i 1).val < 64 := (i 1).isLt; omega⟩)

end Cert.Spec

end
-- ==== Proof.SpecLaws.lean ====
import proofs.«429700_j86320252715258_2_alg».proof.Proof.Spec

noncomputable section

namespace Cert.Spec

open Idealize.ShloMosaic Idealize.ShloMosaic.ValueIdx

theorem colsL_lin {n k : Nat} (x : Arr n k) (Wc : Arr k 128) (bc : Arr 1 128) (W : Arr k 64) (b : Arr 1 64)
    (hW : ∀ (r : Fin k) (j : Fin 64), Wc (ix2 r ⟨j.val, by omega⟩) = W (ix2 r j))
    (hb : ∀ j : Fin 64, bc (ix2 0 ⟨j.val, by omega⟩) = b (ix2 0 j)) :
    colsL (lin x Wc bc) = lin x W b := by
  funext i
  obtain ⟨p, j, rfl⟩ : ∃ (p : Fin n) (j : Fin 64), i = ix2 p j := ⟨i 0, i 1, eq_ix2 i⟩
  show (∑ c : Fin k, x (ix2 p c) * Wc (ix2 c ⟨j.val, _⟩)) + bc (ix2 0 ⟨j.val, _⟩)
    = (∑ c : Fin k, x (ix2 p c) * W (ix2 c j)) + b (ix2 0 j)
  rw [hb j]
  exact congrArg (· + b (ix2 0 j)) (Finset.sum_congr rfl fun c _ => by rw [hW c j])

theorem colsR_lin {n k : Nat} (x : Arr n k) (Wc : Arr k 128) (bc : Arr 1 128) (W : Arr k 64) (b : Arr 1 64)
    (hW : ∀ (r : Fin k) (j : Fin 64), Wc (ix2 r ⟨j.val + 64, by omega⟩) = W (ix2 r j))
    (hb : ∀ j : Fin 64, bc (ix2 0 ⟨j.val + 64, by omega⟩) = b (ix2 0 j)) :
    colsR (lin x Wc bc) = lin x W b := by
  funext i
  obtain ⟨p, j, rfl⟩ : ∃ (p : Fin n) (j : Fin 64), i = ix2 p j := ⟨i 0, i 1, eq_ix2 i⟩
  show (∑ c : Fin k, x (ix2 p c) * Wc (ix2 c ⟨j.val + 64, _⟩)) + bc (ix2 0 ⟨j.val + 64, _⟩)
    = (∑ c : Fin k, x (ix2 p c) * W (ix2 c j)) + b (ix2 0 j)
  rw [hb j]
  exact congrArg (· + b (ix2 0 j)) (Finset.sum_congr rfl fun c _ => by rw [hW c j])

theorem colsL_comb_agg (y : Arr 50000 128) (s d : Col 1600000) (nrm : Vc 1600000) (dc : Arr 50000 1) :
    colsL (comb (agg y s d nrm) y dc) = comb (agg (colsL y) s d nrm) (colsL y) dc := rfl

theorem colsR_comb_agg (y : Arr 50000 128) (s d : Col 1600000) (nrm : Vc 1600000) (dc : Arr 50000 1) :
    colsR (comb (agg y s d nrm) y dc) = comb (agg (colsR y) s d nrm) (colsR y) dc := rfl

end Cert.Spec

end
-- ==== Proof.SpecHost.lean ====
import proofs.«429700_j86320252715258_2_alg».proof.KernelIdeal

noncomputable section

namespace Cert.KernelIdeal.HChain

open Cert.KernelIdeal Cert.KernelIdeal.Facts₀ Cert.KernelIdeal.Facts Idealize.ShloMosaic

variable [Facts] {F : FTy → Type} [FloatOps F]

def srcV (ei : IVec S2x1600000 32) : IVec S1600000 32 :=
  shapeCast S1600000 (extractStridedSlice S1x1600000 ![0, 0] ei slices_S2x1600000_S1x1600000_0_0) shapeCasts_S1x1600000_S1600000

def dstV (ei : IVec S2x1600000 32) : IVec S1600000 32 :=
  shapeCast S1600000 (extractStridedSlice S1x1600000 ![1, 0] ei slices_S2x1600000_S1x1600000_1_0) shapeCasts_S1x1600000_S1600000

def nodeCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

def dinv (ei : IVec S2x1600000 32) (ew : FVec F S1600000 .f32) : FVec F S50000 .f32 :=
  Host.rsqrt (addf
    (Host.scatterAdd scatter_S50000_S1600000x1_S1600000_n_0_0_1
      (broadcastInDim S50000 ![] bcast_S_S50000 (constant (F := F) S_ .f32 0x00000000#32)) (nodeCol (dstV ei)) ew)
    (broadcastInDim S50000 ![] bcast_S_S50000 (constant (F := F) S_ .f32 0x3F800000#32)))

def norm (ei : IVec S2x1600000 32) (ew : FVec F S1600000 .f32) : FVec F S1600000 .f32 :=
  mulf (mulf ew (Host.gather gather_S50000_S1600000x1_S1600000_n_0_n_n_0_1_1 (dinv ei ew) (nodeCol (srcV ei))))
    (Host.gather gather_S50000_S1600000x1_S1600000_n_0_n_n_0_1_1 (dinv ei ew) (nodeCol (dstV ei)))

def expShift (lg : FVec F S50000x1 .f32) : FVec F S50000x1 .f32 :=
  Host.exp (subf lg (broadcastInDim S50000x1 ![0, 1] bcast_S1x1_S50000x1_0_1 (broadcastInDim S1x1 ![1] bcast_S1_S1x1_1
    (maximumf (broadcastInDim S1 ![] bcast_S_S1 (constant (F := F) S_ .f32 0xFF800000#32))
      (Host.reduce FloatOps.maximumf lg (constant (F := F) S_ .f32 0xFF800000#32) reducesTo_S50000x1_S1_d0 h_S_)))))

def softmax (lg : FVec F S50000x1 .f32) : FVec F S50000x1 .f32 :=
  Host.divf (expShift lg) (broadcastInDim S50000x1 ![0, 1] bcast_S1x1_S50000x1_0_1 (broadcastInDim S1x1 ![1] bcast_S1_S1x1_1
    (Host.reduceAdd (expShift lg) (constant (F := F) S_ .f32 0x00000000#32) reducesTo_S50000x1_S1_d0 h_S_)))

def zmean (sz : FVec F S64x64 .f32) (batch : IVec S50000 32) : FVec F S64x64 .f32 :=
  Host.divf sz (broadcastInDim S64x64 ![0, 1] bcast_S64x1_S64x64_0_1 (broadcastInDim S64x1 ![0] bcast_S64_S64x1_0
    (maximumf
      (Host.scatterAdd scatter_S64_S50000x1_S50000_n_0_0_1
        (broadcastInDim S64 ![] bcast_S_S64 (constant (F := F) S_ .f32 0x00000000#32))
        (broadcastInDim S50000x1 ![0] bcast_S50000_S50000x1_0 batch)
        (broadcastInDim S50000 ![] bcast_S_S50000 (constant (F := F) S_ .f32 0x3F800000#32)))
      (broadcastInDim S64 ![] bcast_S_S64 (constant (F := F) S_ .f32 0x3F800000#32)))))

end Cert.KernelIdeal.HChain

end
-- ==== Proof.SpecAll.lean ====
import proofs.«429700_j86320252715258_2_alg».proof.Proof.Spec
import proofs.«429700_j86320252715258_2_alg».proof.Proof.SpecHost

noncomputable section

namespace Cert.Spec

open Idealize.ShloMosaic Idealize.ShloMosaic.ValueIdx Cert.KernelIdeal

variable [Cert.KernelIdeal.Facts]

structure In where
  x : Arr 50000 16
  ei : IVec (⟨2, ![2, 1600000]⟩ : Shape) 32
  ew : Vc 1600000
  batch : IVec (⟨1, ![50000]⟩ : Shape) 32
  W_in : Arr 16 128
  b_in : Vc 128
  W1 : Arr 128 128
  b1 : Vc 128
  W2 : Arr 128 128
  b2 : Vc 128
  Wmu : Arr 128 64
  bmu : Vc 64
  Wlv : Arr 128 64
  blv : Vc 64
  g1 : Vc 128
  be1 : Vc 128
  rm1 : Vc 128
  rv1 : Vc 128
  g2 : Vc 128
  be2 : Vc 128
  rm2 : Vc 128
  rv2 : Vc 128
  Wa1 : Arr 64 128
  ba1 : Vc 128
  Wa2 : Arr 128 1
  ba2 : Vc 1
  Wc1 : Arr 64 128
  bc1 : Vc 128
  Wc2 : Arr 128 64
  bc2 : Vc 64
  Wc3 : Arr 64 6
  bc3 : Vc 6
  Wn1 : Arr 64 64
  bn1 : Vc 64
  Wn2 : Arr 64 1
  bn2 : Vc 1

def colI {n : Nat} (b : IVec (⟨1, ![n]⟩ : Shape) 32) : Col n := fun i => b (ix1 (i 0))

namespace In

variable (I : In)

def src : Col 1600000 := HChain.nodeCol (HChain.srcV I.ei)
def dst : Col 1600000 := HChain.nodeCol (HChain.dstV I.ei)

def dinv : Vc 50000 := HChain.dinv (F := Ideal) I.ei I.ew
def dcol : Arr 50000 1 := colOf I.dinv

def nrm : Vc 1600000 := HChain.norm (F := Ideal) I.ei I.ew

def layer {k C : Nat} (h : Arr 50000 k) (W : Arr k C) (b : Vc C) : Arr 50000 C :=
  comb (agg (lin h W (rowOf b)) I.src I.dst I.nrm) (lin h W (rowOf b)) I.dcol

def h0 : Arr 50000 128 := lin I.x I.W_in (rowOf I.b_in)
def h1 : Arr 50000 128 := bn (I.layer I.h0 I.W1 I.b1) (rowOf I.g1) (rowOf I.be1) (rowOf I.rm1) (rowOf I.rv1)
def h2 : Arr 50000 128 := bn (I.layer I.h1 I.W2 I.b2) (rowOf I.g2) (rowOf I.be2) (rowOf I.rm2) (rowOf I.rv2)

def mu : Arr 50000 64 := I.layer I.h2 I.Wmu I.bmu
def logvar : Arr 50000 64 := I.layer I.h2 I.Wlv I.blv

def att : Arr 50000 1 := HChain.softmax (F := Ideal) (attn I.mu I.Wa1 (rowOf I.ba1) I.Wa2 (rowOf I.ba2))

def gpool : Arr 64 64 := seg (mulCol I.mu I.att) (colI I.batch)
def zmean : Arr 64 64 := HChain.zmean (F := Ideal) (seg I.mu (colI I.batch)) I.batch

def pred : Arr 64 6 := predHead I.gpool I.Wc1 (rowOf I.bc1) I.Wc2 (rowOf I.bc2) I.Wc3 (rowOf I.bc3)
def noise : Arr 64 1 := noiseHead I.zmean I.Wn1 (rowOf I.bn1) I.Wn2 (rowOf I.bn2)

end In

end Cert.Spec

end
-- ==== Proof.KLevelsH.lean ====
import proofs.«429700_j86320252715258_2_alg».proof.Proof.Gen.KernelIdeal.Frame

noncomputable section

namespace Cert.KernelIdeal.KLevels

open Cert.KernelIdeal Cert.KernelIdeal.Gen
open Idealize.ShloMosaic Idealize.ShloMosaic.TcCoe Idealize.SL.Sem

variable {F : FTy → Type} [FloatOps F]

/-- An operation whose one result buffer is numbered from lo up to hi. -/
def Wr (lo hi : Nat) (op : HloOp τ sig (Elt F)) : Prop :=
  ∃ y : Ref sig .tc, op.writes = {Proc.devRef .tc y} ∧ lo ≤ y.idx.val ∧ y.idx.val < hi

/-- A line of such operations keeps every buffer numbered outside: a written buffer is one of the results. -/
theorem pass {lo hi : Nat} {ops : List (HloOp τ sig (Elt F))} (h : ops.Forall (Wr lo hi)) (c : Dev nD)
    (W : Valuation τ sig (Elt F)) (X : (b : Ref sig .tc) → Buf (Elt F) ((c : Thread nD τ).loc b))
    (hX : ∀ b, X b = StableHlo.after ops W (Proc.devRef .tc b)) (r : Ref sig .tc) (hr : r.idx.val < lo ∨ hi ≤ r.idx.val) :
    X r = W (Proc.devRef .tc r) :=
  (hX r).trans <| StableHlo.after_of_forall_not_mem ops W fun op hop hb => by
    obtain ⟨y, hy, h1, h2⟩ := List.forall_iff_forall_mem.mp h op hop
    rw [hy, Finset.mem_singleton] at hb
    obtain rfl := Proc.devRef_injective _ hb
    omega

theorem wr0 : (hostOps0 (F := F)).Forall (Wr 36 77) := by repeat' first | exact ⟨_, rfl, by decide⟩ | refine ⟨?_, ?_⟩
theorem wr1 : (hostOps1 (F := F)).Forall (Wr 78 79) := by repeat' first | exact ⟨_, rfl, by decide⟩ | refine ⟨?_, ?_⟩
theorem wr2 : (hostOps2 (F := F)).Forall (Wr 80 108) := by repeat' first | exact ⟨_, rfl, by decide⟩ | refine ⟨?_, ?_⟩
theorem wr3 : (hostOps3 (F := F)).Forall (Wr 109 110) := by repeat' first | exact ⟨_, rfl, by decide⟩ | refine ⟨?_, ?_⟩
theorem wr4 : (hostOps4 (F := F)).Forall (Wr 111 139) := by repeat' first | exact ⟨_, rfl, by decide⟩ | refine ⟨?_, ?_⟩
theorem wr5 : (hostOps5 (F := F)).Forall (Wr 140 143) := by repeat' first | exact ⟨_, rfl, by decide⟩ | refine ⟨?_, ?_⟩
theorem wr6 : (hostOps6 (F := F)).Forall (Wr 144 168) := by repeat' first | exact ⟨_, rfl, by decide⟩ | refine ⟨?_, ?_⟩
theorem wr7 : (hostOps7 (F := F)).Forall (Wr 169 173) := by repeat' first | exact ⟨_, rfl, by decide⟩ | refine ⟨?_, ?_⟩
theorem wr8 : (hostOps8 (F := F)).Forall (Wr 174 189) := by repeat' first | exact ⟨_, rfl, by decide⟩ | refine ⟨?_, ?_⟩
theorem wr9 : (hostOps9 (F := F)).Forall (Wr 191 208) := by repeat' first | exact ⟨_, rfl, by decide⟩ | refine ⟨?_, ?_⟩

end Cert.KernelIdeal.KLevels

end
-- ==== Proof.KLevels.lean ====
import proofs.«429700_j86320252715258_2_alg».proof.Proof.KLevelsH

noncomputable section

namespace Cert.KernelIdeal.KLevels

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- A region keeps every buffer numbered outside its outputs' numbers: an input window's array is never written back. -/
theorem passR (cfg : Pipeline.Cfg sig Λ₀) (c : Dev nD) (dat : Pipeline.Dat τ (Elt F) Unit ℕ (UR sig nD τ) ℕ cfg c)
    (W : Valuation τ sig (Elt F)) (V : (b : Ref sig .tc) → Buf (Elt F) ((c : Thread nD τ).loc b))
    (hV : ∀ b, W (Proc.devRef .tc b) = V b) (hinj : Function.Injective (Pipeline.arrRef cfg.spec))
    (hA : ∀ w, dat.A w = V (Pipeline.arrRef cfg.spec w)) (lo hi : Nat)
    (hin : ∀ w, (Pipeline.arrRef cfg.spec w).idx.val < lo ∨ hi ≤ (Pipeline.arrRef cfg.spec w).idx.val →
      (cfg.win w).isOut = false)
    (r : Ref sig .tc) (hr : r.idx.val < lo ∨ hi ≤ r.idx.val) :
    Pipeline.withArrays cfg.spec c W (fun w => dat.arrAt w cfg.N) (Proc.devRef .tc r) = V r := by
  by_cases h : ∃ w, Pipeline.arrRef cfg.spec w = r
  · obtain ⟨w, rfl⟩ := h
    exact (Pipeline.withArrays_arr cfg.spec hinj c W _ w).trans ((dat.arrAt_in w (hin w hr) _).trans (hA w))
  · exact (Pipeline.withArrays_of_ne cfg.spec c W _ r fun w e => h ⟨w, e⟩).trans (hV r)

/-- The buffer contents at boundary k: 0 the launch, 2j+1 the entry of region j, 2j+2 its exit. -/
def Vn : Nat → (c : Dev nD) → (b : Ref sig .tc) → Buf (Elt F) ((c : Thread nD τ).loc b)
  | 0 => fun c b => W0 m ρ c b | 1 => V1 m ρ | 2 => V2 m ρ | 3 => V3 m ρ | 4 => V4 m ρ | 5 => V5 m ρ | 6 => V6 m ρ
  | 7 => V7 m ρ | 8 => V8 m ρ | 9 => V9 m ρ | 10 => V10 m ρ | 11 => V11 m ρ | 12 => V12 m ρ | 13 => V13 m ρ
  | 14 => V14 m ρ | 15 => V15 m ρ | 16 => V16 m ρ | 17 => V17 m ρ | 18 => V18 m ρ | 19 => V19 m ρ | _ => fun c b => W20 m ρ c b

/-- The number of the first buffer written after boundary k; buffers are numbered in program order. -/
def lo : Nat → Nat
  | 0 => 36 | 1 => 77 | 2 => 78 | 3 => 79 | 4 => 80 | 5 => 108 | 6 => 109 | 7 => 110 | 8 => 111 | 9 => 139 | 10 => 140
  | 11 => 143 | 12 => 144 | 13 => 168 | 14 => 169 | 15 => 173 | 16 => 174 | 17 => 189 | 18 => 191 | 19 => 208 | _ => 210

/-- From one boundary to the next every buffer is kept but those numbered from lo k up to lo (k + 1). -/
theorem step (k : Nat) (c : Dev nD) (r : Ref sig .tc) (hr : r.idx.val < lo k ∨ lo (k + 1) ≤ r.idx.val) :
    Vn m ρ (k + 1) c r = Vn m ρ k c r :=
  match k with
  | 0 => pass wr0 c (W0 m ρ c) (V1 m ρ c) (fun _ => rfl) r hr
  | 1 => passR cfg0 c (dat0 (V1 m ρ) c) (W1 m ρ c) (V1 m ρ c) (fun _ => rfl) launch0.win.arr_inj (A_eq0 (V1 m ρ) c) 77 78 (by decide) r hr
  | 2 => pass wr1 c (W2 m ρ c) (V3 m ρ c) (fun _ => rfl) r hr
  | 3 => passR cfg1 c (dat1 (V3 m ρ) c) (W3 m ρ c) (V3 m ρ c) (fun _ => rfl) launch1.win.arr_inj (A_eq1 (V3 m ρ) c) 79 80 (by decide) r hr
  | 4 => pass wr2 c (W4 m ρ c) (V5 m ρ c) (fun _ => rfl) r hr
  | 5 => passR cfg2 c (dat2 (V5 m ρ) c) (W5 m ρ c) (V5 m ρ c) (fun _ => rfl) launch2.win.arr_inj (A_eq2 (V5 m ρ) c) 108 109 (by decide) r hr
  | 6 => pass wr3 c (W6 m ρ c) (V7 m ρ c) (fun _ => rfl) r hr
  | 7 => passR cfg3 c (dat3 (V7 m ρ) c) (W7 m ρ c) (V7 m ρ c) (fun _ => rfl) launch3.win.arr_inj (A_eq3 (V7 m ρ) c) 110 111 (by decide) r hr
  | 8 => pass wr4 c (W8 m ρ c) (V9 m ρ c) (fun _ => rfl) r hr
  | 9 => passR cfg4 c (dat4 (V9 m ρ) c) (W9 m ρ c) (V9 m ρ c) (fun _ => rfl) launch4.win.arr_inj (A_eq4 (V9 m ρ) c) 139 140 (by decide) r hr
  | 10 => pass wr5 c (W10 m ρ c) (V11 m ρ c) (fun _ => rfl) r hr
  | 11 => passR cfg5 c (dat5 (V11 m ρ) c) (W11 m ρ c) (V11 m ρ c) (fun _ => rfl) launch5.win.arr_inj (A_eq5 (V11 m ρ) c) 143 144 (by decide) r hr
  | 12 => pass wr6 c (W12 m ρ c) (V13 m ρ c) (fun _ => rfl) r hr
  | 13 => passR cfg6 c (dat6 (V13 m ρ) c) (W13 m ρ c) (V13 m ρ c) (fun _ => rfl) launch6.win.arr_inj (A_eq6 (V13 m ρ) c) 168 169 (by decide) r hr
  | 14 => pass wr7 c (W14 m ρ c) (V15 m ρ c) (fun _ => rfl) r hr
  | 15 => passR cfg7 c (dat7 (V15 m ρ) c) (W15 m ρ c) (V15 m ρ c) (fun _ => rfl) launch7.win.arr_inj (A_eq7 (V15 m ρ) c) 173 174 (by decide) r hr
  | 16 => pass wr8 c (W16 m ρ c) (V17 m ρ c) (fun _ => rfl) r hr
  | 17 => passR cfg8 c (dat8 (V17 m ρ) c) (W17 m ρ c) (V17 m ρ c) (fun _ => rfl) launch8.win.arr_inj (A_eq8 (V17 m ρ) c) 189 191 (by decide) r hr
  | 18 => pass wr9 c (W18 m ρ c) (V19 m ρ c) (fun _ => rfl) r hr
  | 19 => passR cfg9 c (dat9 (V19 m ρ) c) (W19 m ρ c) (V19 m ρ c) (fun _ => rfl) launch9.win.arr_inj (A_eq9 (V19 m ρ) c) 208 210 (by decide) r hr
  | _ + 20 => rfl

theorem lo_mono : ∀ k, lo k ≤ lo (k + 1)
  | 0 | 1 | 2 | 3 | 4 | 5 | 6 | 7 | 8 | 9 | 10 | 11 | 12 | 13 | 14 | 15 | 16 | 17 | 18 | 19 => by decide
  | _ + 20 => Nat.le_refl _

/-- A buffer written before boundary i holds at every later boundary what it holds at i. -/
theorem keep (i j : Nat) (hij : i ≤ j) (c : Dev nD) (r : Ref sig .tc) (hr : r.idx.val < lo i) :
    Vn m ρ j c r = Vn m ρ i c r := by
  induction j, hij using Nat.le_induction with
  | base => rfl
  | succ j hj ih =>
    exact (step m ρ j c r (Or.inl (hr.trans_le (monotone_nat_of_le_succ lo_mono hj)))).trans ih

/-- An argument buffer holds its launch contents at every boundary. -/
theorem argAt (k : Nat) (c : Dev nD) (r : Ref sig .tc) (hr : r.idx.val < 36) :
    Vn m ρ k c r = m ((c.tc : Thread nD τ).loc r) :=
  keep m ρ 0 k (Nat.zero_le k) c r hr

end Cert.KernelIdeal.KLevels

end
-- ==== Proof.LibPlainDot.lean ====
import Idealize.ShloMosaic.Lib.StackMember
import Idealize.ShloMosaic.PureOps.Ideal.Laws

noncomputable section

namespace Cert.Lib.PlainDot

open Idealize.ShloMosaic Idealize.ShloMosaic.ValueIdx

theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.LibBlocks.lean ====
import Idealize.ShloMosaic.Lib.Pipeline.Value

namespace Cert.Blocks

open Idealize.ShloMosaic Idealize.ShloMosaic.Pipeline

variable {sig : RefSig} {G : Grid} (w : Window sig G) (t : Fin G.N)

-- An element of a block sits in the array, on each axis, at the block's offset plus its own coordinate.
theorem emb_eq (off : Fin w.shape.rank → ℕ) (hoff : ∀ a, w.index t a * w.size a = off a)
    (y : (w.xblock (G.coords t)).Idx) (i : w.shape.Idx) (hi : ∀ a, (i a).val = off a + (y a).val) :
    (w.rect t).emb y = i :=
  funext fun a => Fin.ext ((w.rect_emb_val t y a).trans ((congrArg (· + (y a).val) (hoff a)).trans (hi a).symm))

-- Where the block index is zero on every axis an element keeps its coordinates.
theorem emb_eq_zero (h : ∀ a, w.index t a = 0) (y : (w.xblock (G.coords t)).Idx) (i : w.shape.Idx)
    (hi : ∀ a, (i a).val = (y a).val) : (w.rect t).emb y = i :=
  funext fun a => Fin.ext ((w.rect_emb_val_of_index_zero t a (h a) y).trans (hi a).symm)

-- Ten blocks of 5000 rows make up 50000 rows: row 5000 t + p exists, and every row is one of these.
theorem row_at {N : ℕ} (hN : N = 10) (t : Fin N) (p : Fin 5000) : ∃ R : Fin 50000, R.val = t.val * 5000 + p.val :=
  ⟨⟨t.val * 5000 + p.val, by have := t.isLt; have := p.isLt; omega⟩, rfl⟩

theorem exists_row {N : ℕ} (hN : N = 10) (r : Fin 50000) : ∃ (t : Fin N) (p : Fin 5000), r.val = t.val * 5000 + p.val :=
  ⟨⟨r.val / 5000, by have := r.isLt; omega⟩, ⟨r.val % 5000, Nat.mod_lt _ (by decide)⟩, by show r.val = r.val / 5000 * 5000 + r.val % 5000; omega⟩

-- An array index that is the image of a block index lies under the block.
theorem mem_set_of_emb {κ : Kind} {sp : Space} {S : Shape} {e : EltTy} (v : View sig κ sp S e) (y : S.Idx) (i : v.ty.Idx)
    (h : v.emb y = i) : i ∈ v.set :=
  h ▸ v.emb_mem_set y

theorem hz : (![0, 0] : Fin 2 → Nat) = fun _ => 0 := funext fun a => by fin_cases a <;> rfl

end Cert.Blocks
-- ==== Proof.Reg0.lean ====
import proofs.«429700_j86320252715258_2_alg».proof.Proof.Gen.KernelIdeal.Frame
import proofs.«429700_j86320252715258_2_alg».proof.Proof.Spec
import proofs.«429700_j86320252715258_2_alg».proof.Proof.LibPlainDot
import proofs.«429700_j86320252715258_2_alg».proof.Proof.LibBlocks
import Idealize.ShloMosaic.Lib.ValueLayout

namespace Cert.KernelIdeal.R0

open Gen Cert.Spec Cert.Blocks Idealize.ShloMosaic TcCoe ValueIdx

variable (V : (c : Dev nD) → (b : Ref sig .tc) → Buf (Elt Ideal) ((c : Thread nD τ).loc b))

-- Over the extended reals the product into the zero array is the sum over the contracted coordinate.
theorem out_lin {x0 : Vec Ideal S5000x16 .f32} {x1 : Vec Ideal S16x128 .f32} {x2 : Vec Ideal S1x128 .f32}
    {X : Arr 50000 16} {W : Arr 16 128} {B : Arr 1 128} (p : Fin 5000) (q : Fin 128) (R : Fin 50000)
    (h0 : ∀ k : Fin 16, x0 (ix2 p k) = X (ix2 R k)) (h1 : x1 = W) (h2 : x2 = B) :
    out0_3 x0 x1 x2 (ix2 p q) = lin X W B (ix2 R q) := by
  subst h1 h2
  unfold out0_3
  rw [View.canon_unit_zero hz]
  simp only [View.ld_unit_zero (S := ⟨2, _⟩) hz]
  unfold k0_pay1
  refine (addf_apply _ _ _).trans (congrArg₂ (· + ·) ?_ ?_)
  · refine (Cert.Lib.PlainDot.matmul_plain_zero_apply none _ _ p q).trans ?_
    exact Finset.sum_congr rfl fun k _ => congrArg (· * _) (h0 k)
  · refine (broadcastTo_1b_ab_apply _ _ p q).trans ?_
    rw [shapeCast_self]

theorem idx_facts : ∀ (t : Fin cfg0.N) (a : Fin 2),
    win0_0.index t a * win0_0.size a = ![t.val * 5000, 0] a ∧ win0_1.index t a = 0 ∧ win0_2.index t a = 0
    ∧ win0_3.index t a * win0_3.size a = ![t.val * 5000, 0] a :=
  (by decide +kernel : ∀ t : Fin grid0.N, _)

theorem emb3 (t : Fin cfg0.N) (p : Fin 5000) (q : Fin 128) (R : Fin 50000) (hR : R.val = t.val * 5000 + p.val) :
    ((cfg0.win 3).blk t).view.emb (ix2 p q) = ix2 R q :=
  emb_eq win0_3 t ![t.val * 5000, 0] (fun a => (idx_facts t a).2.2.2) (ix2 p q) (ix2 R q) (Fin.forall_fin_two.2 ⟨hR, (Nat.zero_add _).symm⟩)

theorem rd0 (c : Dev nD) (t : Fin cfg0.N) (p : Fin 5000) (k : Fin 16) (R : Fin 50000) (hR : R.val = t.val * 5000 + p.val) :
    iblk0 V c 0 t (ix2 p k) = V c main_arg0 (ix2 R k) :=
  congrArg (V c main_arg0) (emb_eq win0_0 t ![t.val * 5000, 0] (fun a => (idx_facts t a).1) (ix2 p k) (ix2 R k) (Fin.forall_fin_two.2 ⟨hR, (Nat.zero_add _).symm⟩))

theorem rd1 (c : Dev nD) (t : Fin cfg0.N) : iblk0 V c 1 t = V c main_arg4 :=
  funext fun y => congrArg (V c main_arg4) (emb_eq_zero win0_1 t (fun a => (idx_facts t a).2.1) y y fun _ => rfl)

theorem rd2 (c : Dev nD) (t : Fin cfg0.N) : iblk0 V c 2 t = V c main_v32 :=
  funext fun y => congrArg (V c main_v32) (emb_eq_zero win0_2 t (fun a => (idx_facts t a).2.2.1) y y fun _ => rfl)

theorem final (c : Dev nD) :
    (dat0 (F := Ideal) V c).arrAt 3 cfg0.N = lin (n := 50000) (k := 16) (p := 128) (V c main_arg0) (V c main_arg4) (V c main_v32) := by
  refine (dat0 V c).arrAt_eq_of_cover 3 _ (fun t _ => ?_) fun i => ?_
  · show (cfg0.win 3).cut (grid0.coords t) ((dat0 V c).after 3 t) = _
    rw [after0_3]
    funext j
    obtain ⟨p, q, rfl⟩ : ∃ (p : Fin 5000) (q : Fin 128), j = ix2 p q := ⟨j 0, j 1, eq_ix2 j⟩
    obtain ⟨R, hR⟩ := row_at N_0 t p
    show _ = lin _ _ _ (((cfg0.win 3).blk t).view.emb (ix2 p q))
    rw [emb3 t p q R hR]
    exact out_lin p q R (fun k => rd0 V c t p k R hR) (rd1 V c t) (rd2 V c t)
  · obtain ⟨t, p, h⟩ := exists_row N_0 (i 0)
    exact ⟨t, flush0_3 t, mem_set_of_emb _ _ _ ((emb3 t p (i 1) (i 0) h).trans (eq_ix2 i).symm)⟩

end Cert.KernelIdeal.R0
-- ==== Proof.Reg1.lean ====
import proofs.«429700_j86320252715258_2_alg».proof.Proof.Gen.KernelIdeal.Frame
import proofs.«429700_j86320252715258_2_alg».proof.Proof.Spec
import proofs.«429700_j86320252715258_2_alg».proof.Proof.LibPlainDot
import proofs.«429700_j86320252715258_2_alg».proof.Proof.LibBlocks
import Idealize.ShloMosaic.Lib.ValueLayout

namespace Cert.KernelIdeal.R1

open Gen Cert.Spec Cert.Blocks Idealize.ShloMosaic TcCoe ValueIdx

variable (V : (c : Dev nD) → (b : Ref sig .tc) → Buf (Elt Ideal) ((c : Thread nD τ).loc b))

-- Over the extended reals the product into the zero array is the sum over the contracted coordinate.
theorem out_lin {x0 : Vec Ideal S5000x128 .f32} {x1 : Vec Ideal S128x128 .f32} {x2 : Vec Ideal S1x128 .f32}
    {X : Arr 50000 128} {W : Arr 128 128} {B : Arr 1 128} (p : Fin 5000) (q : Fin 128) (R : Fin 50000)
    (h0 : ∀ k : Fin 128, x0 (ix2 p k) = X (ix2 R k)) (h1 : x1 = W) (h2 : x2 = B) :
    out1_3 x0 x1 x2 (ix2 p q) = lin X W B (ix2 R q) := by
  subst h1 h2
  unfold out1_3
  rw [View.canon_unit_zero hz]
  simp only [View.ld_unit_zero (S := ⟨2, _⟩) hz]
  unfold k1_pay1
  refine (truncf_apply (ψ := .bf16) _ bitsLt_bf16_f32 (ix2 p q)).trans ?_
  refine (addf_apply _ _ _).trans (congrArg₂ (· + ·) ?_ ?_)
  · simp only [shapeCast_self]
    refine (Cert.Lib.PlainDot.matmul_plain_zero_apply none _ _ p q).trans ?_
    exact Finset.sum_congr rfl fun k _ => congrArg (· * _) (h0 k)
  · refine (broadcastTo_1b_ab_apply _ _ p q).trans ?_
    rw [shapeCast_self]

theorem idx_facts : ∀ (t : Fin cfg1.N) (a : Fin 2),
    win1_0.index t a * win1_0.size a = ![t.val * 5000, 0] a ∧ win1_1.index t a = 0 ∧ win1_2.index t a = 0
    ∧ win1_3.index t a * win1_3.size a = ![t.val * 5000, 0] a :=
  (by decide +kernel : ∀ t : Fin grid1.N, _)

theorem emb3 (t : Fin cfg1.N) (p : Fin 5000) (q : Fin 128) (R : Fin 50000) (hR : R.val = t.val * 5000 + p.val) :
    ((cfg1.win 3).blk t).view.emb (ix2 p q) = ix2 R q :=
  emb_eq win1_3 t ![t.val * 5000, 0] (fun a => (idx_facts t a).2.2.2) (ix2 p q) (ix2 R q) (Fin.forall_fin_two.2 ⟨hR, (Nat.zero_add _).symm⟩)

theorem rd0 (c : Dev nD) (t : Fin cfg1.N) (p : Fin 5000) (k : Fin 128) (R : Fin 50000) (hR : R.val = t.val * 5000 + p.val) :
    iblk1 V c 0 t (ix2 p k) = V c main_v33 (ix2 R k) :=
  congrArg (V c main_v33) (emb_eq win1_0 t ![t.val * 5000, 0] (fun a => (idx_facts t a).1) (ix2 p k) (ix2 R k) (Fin.forall_fin_two.2 ⟨hR, (Nat.zero_add _).symm⟩))

theorem rd1 (c : Dev nD) (t : Fin cfg1.N) : iblk1 V c 1 t = V c main_arg6 :=
  funext fun y => congrArg (V c main_arg6) (emb_eq_zero win1_1 t (fun a => (idx_facts t a).2.1) y y fun _ => rfl)

theorem rd2 (c : Dev nD) (t : Fin cfg1.N) : iblk1 V c 2 t = V c main_v34 :=
  funext fun y => congrArg (V c main_v34) (emb_eq_zero win1_2 t (fun a => (idx_facts t a).2.2.1) y y fun _ => rfl)

theorem final (c : Dev nD) :
    (dat1 (F := Ideal) V c).arrAt 3 cfg1.N = lin (n := 50000) (k := 128) (p := 128) (V c main_v33) (V c main_arg6) (V c main_v34) := by
  refine (dat1 V c).arrAt_eq_of_cover 3 _ (fun t _ => ?_) fun i => ?_
  · show (cfg1.win 3).cut (grid1.coords t) ((dat1 V c).after 3 t) = _
    rw [after1_3]
    funext j
    obtain ⟨p, q, rfl⟩ : ∃ (p : Fin 5000) (q : Fin 128), j = ix2 p q := ⟨j 0, j 1, eq_ix2 j⟩
    obtain ⟨R, hR⟩ := row_at N_1 t p
    show _ = lin _ _ _ (((cfg1.win 3).blk t).view.emb (ix2 p q))
    rw [emb3 t p q R hR]
    exact out_lin p q R (fun k => rd0 V c t p k R hR) (rd1 V c t) (rd2 V c t)
  · obtain ⟨t, p, h⟩ := exists_row N_1 (i 0)
    exact ⟨t, flush1_3 t, mem_set_of_emb _ _ _ ((emb3 t p (i 1) (i 0) h).trans (eq_ix2 i).symm)⟩

end Cert.KernelIdeal.R1
-- ==== Proof.LibRowOps.lean ====
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.RowOps

end
-- ==== Proof.Reg2.lean ====
import proofs.«429700_j86320252715258_2_alg».proof.Proof.Gen.KernelIdeal.Frame
import proofs.«429700_j86320252715258_2_alg».proof.Proof.Spec
import proofs.«429700_j86320252715258_2_alg».proof.Proof.LibRowOps
import proofs.«429700_j86320252715258_2_alg».proof.Proof.LibBlocks

namespace Cert.KernelIdeal.R2

open Gen Cert.Spec Cert.Blocks Idealize.ShloMosaic TcCoe ValueIdx

-- Entry by entry the body is the normalised combination: each broadcast row or column is read at its own coordinate.
theorem out_bn {x0 : Vec Ideal S5000x128 .bf16} {x1 : Vec Ideal S5000x128 .f32} {x2 : Vec Ideal S5000x1 .f32}
    {x3 x4 x5 x6 : Vec Ideal S1x128 .f32} {A H : Arr 50000 128} {D : Arr 50000 1} {G BE RM RV : Arr 1 128}
    (p : Fin 5000) (q : Fin 128) (R : Fin 50000)
    (h0 : x0 (ix2 p q) = H (ix2 R q)) (h1 : x1 (ix2 p q) = A (ix2 R q)) (h2 : x2 (ix2 p (0 : Fin 1)) = D (ix2 R (0 : Fin 1)))
    (h3 : x3 = G) (h4 : x4 = BE) (h5 : x5 = RM) (h6 : x6 = RV) :
    out2_7 x0 x1 x2 x3 x4 x5 x6 (ix2 p q) = bn (comb A H D) G BE RM RV (ix2 R q) := by
  subst h3 h4 h5 h6
  unfold out2_7
  rw [View.canon_unit_zero hz]
  simp only [View.ld_unit_zero (S := ⟨2, _⟩) hz]
  unfold k2_pay1
  simp only [shapeCast_self]
  rw [maximumf_apply, addf_apply, mulf_apply, subf_apply, addf_apply, mulf_apply]
  rw [extf_apply, Cert.RowOps.broadcastTo_a1_ab_apply, broadcastTo_1b_ab_apply, broadcastTo_1b_ab_apply,
    broadcastTo_1b_ab_apply, mulf_apply, mulf_apply, h0, h1, h2]
  exact congrArg₂ max rfl Ideal.ofBits_zero_f32

theorem idx_facts : ∀ (t : Fin cfg2.N) (a : Fin 2),
    (win2_0.index t a * win2_0.size a = ![t.val * 5000, 0] a ∧ win2_1.index t a * win2_1.size a = ![t.val * 5000, 0] a
      ∧ win2_2.index t a * win2_2.size a = ![t.val * 5000, 0] a ∧ win2_7.index t a * win2_7.size a = ![t.val * 5000, 0] a)
    ∧ win2_3.index t a = 0 ∧ win2_4.index t a = 0 ∧ win2_5.index t a = 0 ∧ win2_6.index t a = 0 :=
  (by decide +kernel : ∀ t : Fin grid2.N, _)

variable (V : (c : Dev nD) → (b : Ref sig .tc) → Buf (Elt Ideal) ((c : Thread nD τ).loc b))

theorem emb7 (t : Fin cfg2.N) (p : Fin 5000) (q : Fin 128) (R : Fin 50000) (hR : R.val = t.val * 5000 + p.val) :
    ((cfg2.win 7).blk t).view.emb (ix2 p q) = ix2 R q :=
  emb_eq win2_7 t ![t.val * 5000, 0] (fun a => (idx_facts t a).1.2.2.2) (ix2 p q) (ix2 R q) (Fin.forall_fin_two.2 ⟨hR, (Nat.zero_add _).symm⟩)

theorem rd0 (c : Dev nD) (t : Fin cfg2.N) (p : Fin 5000) (q : Fin 128) (R : Fin 50000) (hR : R.val = t.val * 5000 + p.val) :
    iblk2 (F := Ideal) V c 0 t (ix2 p q) = V c main_v35 (ix2 R q) :=
  congrArg (V c main_v35) (emb_eq win2_0 t ![t.val * 5000, 0] (fun a => (idx_facts t a).1.1) (ix2 p q) (ix2 R q) (Fin.forall_fin_two.2 ⟨hR, (Nat.zero_add _).symm⟩))

theorem rd1 (c : Dev nD) (t : Fin cfg2.N) (p : Fin 5000) (q : Fin 128) (R : Fin 50000) (hR : R.val = t.val * 5000 + p.val) :
    iblk2 (F := Ideal) V c 1 t (ix2 p q) = V c main_v54 (ix2 R q) :=
  congrArg (V c main_v54) (emb_eq win2_1 t ![t.val * 5000, 0] (fun a => (idx_facts t a).1.2.1) (ix2 p q) (ix2 R q) (Fin.forall_fin_two.2 ⟨hR, (Nat.zero_add _).symm⟩))

theorem rd2 (c : Dev nD) (t : Fin cfg2.N) (p : Fin 5000) (R : Fin 50000) (hR : R.val = t.val * 5000 + p.val) :
    iblk2 (F := Ideal) V c 2 t (ix2 p (0 : Fin 1)) = V c main_v31 (ix2 R (0 : Fin 1)) :=
  congrArg (V c main_v31) (emb_eq win2_2 t ![t.val * 5000, 0] (fun a => (idx_facts t a).1.2.2.1) (ix2 p (0 : Fin 1)) (ix2 R (0 : Fin 1)) (Fin.forall_fin_two.2 ⟨hR, (Nat.zero_add _).symm⟩))

theorem rd3 (c : Dev nD) (t : Fin cfg2.N) : iblk2 (F := Ideal) V c 3 t = V c main_v55 :=
  funext fun y => congrArg (V c main_v55) (emb_eq_zero win2_3 t (fun a => (idx_facts t a).2.1) y y fun _ => rfl)

theorem rd4 (c : Dev nD) (t : Fin cfg2.N) : iblk2 (F := Ideal) V c 4 t = V c main_v56 :=
  funext fun y => congrArg (V c main_v56) (emb_eq_zero win2_4 t (fun a => (idx_facts t a).2.2.1) y y fun _ => rfl)

theorem rd5 (c : Dev nD) (t : Fin cfg2.N) : iblk2 (F := Ideal) V c 5 t = V c main_v57 :=
  funext fun y => congrArg (V c main_v57) (emb_eq_zero win2_5 t (fun a => (idx_facts t a).2.2.2.1) y y fun _ => rfl)

theorem rd6 (c : Dev nD) (t : Fin cfg2.N) : iblk2 (F := Ideal) V c 6 t = V c main_v58 :=
  funext fun y => congrArg (V c main_v58) (emb_eq_zero win2_6 t (fun a => (idx_facts t a).2.2.2.2) y y fun _ => rfl)

theorem final (c : Dev nD) :
    (dat2 (F := Ideal) V c).arrAt 7 cfg2.N
      = bn (n := 50000) (C := 128) (comb (V c main_v54) (V c main_v35) (V c main_v31)) (V c main_v55) (V c main_v56) (V c main_v57) (V c main_v58) := by
  refine (dat2 (F := Ideal) V c).arrAt_eq_of_cover 7 _ (fun t _ => ?_) fun i => ?_
  · show (cfg2.win 7).cut (grid2.coords t) ((dat2 V c).after 7 t) = _
    rw [after2_7]
    funext y
    obtain ⟨p, q, rfl⟩ : ∃ (p : Fin 5000) (q : Fin 128), y = ix2 p q := ⟨y 0, y 1, eq_ix2 y⟩
    obtain ⟨R, hR⟩ := row_at N_2 t p
    show _ = bn _ _ _ _ _ (((cfg2.win 7).blk t).view.emb (ix2 p q))
    rw [emb7 t p q R hR]
    exact out_bn p q R (rd0 V c t p q R hR) (rd1 V c t p q R hR) (rd2 V c t p R hR) (rd3 V c t) (rd4 V c t) (rd5 V c t) (rd6 V c t)
  · obtain ⟨t, p, h⟩ := exists_row N_2 (i 0)
    exact ⟨t, flush2_7 t, mem_set_of_emb _ _ _ ((emb7 t p (i 1) (i 0) h).trans (eq_ix2 i).symm)⟩

end Cert.KernelIdeal.R2
-- ==== Proof.Reg3.lean ====
import proofs.«429700_j86320252715258_2_alg».proof.Proof.Gen.KernelIdeal.Frame
import proofs.«429700_j86320252715258_2_alg».proof.Proof.Spec
import proofs.«429700_j86320252715258_2_alg».proof.Proof.Reg1

namespace Cert.KernelIdeal.R3

open Gen Cert.Spec Cert.Blocks Idealize.ShloMosaic TcCoe ValueIdx

variable (V : (c : Dev nD) → (b : Ref sig .tc) → Buf (Elt Ideal) ((c : Thread nD τ).loc b))

theorem idx_facts : ∀ (t : Fin cfg3.N) (a : Fin 2),
    win3_0.index t a * win3_0.size a = ![t.val * 5000, 0] a ∧ win3_1.index t a = 0 ∧ win3_2.index t a = 0
    ∧ win3_3.index t a * win3_3.size a = ![t.val * 5000, 0] a :=
  (by decide +kernel : ∀ t : Fin grid3.N, _)

theorem emb3 (t : Fin cfg3.N) (p : Fin 5000) (q : Fin 128) (R : Fin 50000) (hR : R.val = t.val * 5000 + p.val) :
    ((cfg3.win 3).blk t).view.emb (ix2 p q) = ix2 R q :=
  emb_eq win3_3 t ![t.val * 5000, 0] (fun a => (idx_facts t a).2.2.2) (ix2 p q) (ix2 R q) (Fin.forall_fin_two.2 ⟨hR, (Nat.zero_add _).symm⟩)

theorem rd0 (c : Dev nD) (t : Fin cfg3.N) (p : Fin 5000) (k : Fin 128) (R : Fin 50000) (hR : R.val = t.val * 5000 + p.val) :
    iblk3 V c 0 t (ix2 p k) = V c main_v59 (ix2 R k) :=
  congrArg (V c main_v59) (emb_eq win3_0 t ![t.val * 5000, 0] (fun a => (idx_facts t a).1) (ix2 p k) (ix2 R k) (Fin.forall_fin_two.2 ⟨hR, (Nat.zero_add _).symm⟩))

theorem rd1 (c : Dev nD) (t : Fin cfg3.N) : iblk3 V c 1 t = V c main_arg8 :=
  funext fun y => congrArg (V c main_arg8) (emb_eq_zero win3_1 t (fun a => (idx_facts t a).2.1) y y fun _ => rfl)

theorem rd2 (c : Dev nD) (t : Fin cfg3.N) : iblk3 V c 2 t = V c main_v60 :=
  funext fun y => congrArg (V c main_v60) (emb_eq_zero win3_2 t (fun a => (idx_facts t a).2.2.1) y y fun _ => rfl)

theorem final (c : Dev nD) :
    (dat3 (F := Ideal) V c).arrAt 3 cfg3.N = lin (n := 50000) (k := 128) (p := 128) (V c main_v59) (V c main_arg8) (V c main_v60) := by
  refine (dat3 V c).arrAt_eq_of_cover 3 _ (fun t _ => ?_) fun i => ?_
  · show (cfg3.win 3).cut (grid3.coords t) ((dat3 V c).after 3 t) = _
    rw [after3_3]
    funext j
    obtain ⟨p, q, rfl⟩ : ∃ (p : Fin 5000) (q : Fin 128), j = ix2 p q := ⟨j 0, j 1, eq_ix2 j⟩
    obtain ⟨R, hR⟩ := row_at N_3 t p
    show _ = lin _ _ _ (((cfg3.win 3).blk t).view.emb (ix2 p q))
    rw [emb3 t p q R hR]
    exact R1.out_lin p q R (fun k => rd0 V c t p k R hR) (rd1 V c t) (rd2 V c t)
  · obtain ⟨t, p, h⟩ := exists_row N_3 (i 0)
    exact ⟨t, flush3_3 t, mem_set_of_emb _ _ _ ((emb3 t p (i 1) (i 0) h).trans (eq_ix2 i).symm)⟩

end Cert.KernelIdeal.R3
-- ==== Proof.Reg4.lean ====
import proofs.«429700_j86320252715258_2_alg».proof.Proof.Gen.KernelIdeal.Frame
import proofs.«429700_j86320252715258_2_alg».proof.Proof.Spec
import proofs.«429700_j86320252715258_2_alg».proof.Proof.Reg2

namespace Cert.KernelIdeal.R4

open Gen Cert.Spec Cert.Blocks Idealize.ShloMosaic TcCoe ValueIdx

theorem idx_facts : ∀ (t : Fin cfg4.N) (a : Fin 2),
    (win4_0.index t a * win4_0.size a = ![t.val * 5000, 0] a ∧ win4_1.index t a * win4_1.size a = ![t.val * 5000, 0] a
      ∧ win4_2.index t a * win4_2.size a = ![t.val * 5000, 0] a ∧ win4_7.index t a * win4_7.size a = ![t.val * 5000, 0] a)
    ∧ win4_3.index t a = 0 ∧ win4_4.index t a = 0 ∧ win4_5.index t a = 0 ∧ win4_6.index t a = 0 :=
  (by decide +kernel : ∀ t : Fin grid4.N, _)

variable (V : (c : Dev nD) → (b : Ref sig .tc) → Buf (Elt Ideal) ((c : Thread nD τ).loc b))

theorem emb7 (t : Fin cfg4.N) (p : Fin 5000) (q : Fin 128) (R : Fin 50000) (hR : R.val = t.val * 5000 + p.val) :
    ((cfg4.win 7).blk t).view.emb (ix2 p q) = ix2 R q :=
  emb_eq win4_7 t ![t.val * 5000, 0] (fun a => (idx_facts t a).1.2.2.2) (ix2 p q) (ix2 R q) (Fin.forall_fin_two.2 ⟨hR, (Nat.zero_add _).symm⟩)

theorem rd0 (c : Dev nD) (t : Fin cfg4.N) (p : Fin 5000) (q : Fin 128) (R : Fin 50000) (hR : R.val = t.val * 5000 + p.val) :
    iblk4 (F := Ideal) V c 0 t (ix2 p q) = V c main_v61 (ix2 R q) :=
  congrArg (V c main_v61) (emb_eq win4_0 t ![t.val * 5000, 0] (fun a => (idx_facts t a).1.1) (ix2 p q) (ix2 R q) (Fin.forall_fin_two.2 ⟨hR, (Nat.zero_add _).symm⟩))

theorem rd1 (c : Dev nD) (t : Fin cfg4.N) (p : Fin 5000) (q : Fin 128) (R : Fin 50000) (hR : R.val = t.val * 5000 + p.val) :
    iblk4 (F := Ideal) V c 1 t (ix2 p q) = V c main_v80 (ix2 R q) :=
  congrArg (V c main_v80) (emb_eq win4_1 t ![t.val * 5000, 0] (fun a => (idx_facts t a).1.2.1) (ix2 p q) (ix2 R q) (Fin.forall_fin_two.2 ⟨hR, (Nat.zero_add _).symm⟩))

theorem rd2 (c : Dev nD) (t : Fin cfg4.N) (p : Fin 5000) (R : Fin 50000) (hR : R.val = t.val * 5000 + p.val) :
    iblk4 (F := Ideal) V c 2 t (ix2 p (0 : Fin 1)) = V c main_v31 (ix2 R (0 : Fin 1)) :=
  congrArg (V c main_v31) (emb_eq win4_2 t ![t.val * 5000, 0] (fun a => (idx_facts t a).1.2.2.1) (ix2 p (0 : Fin 1)) (ix2 R (0 : Fin 1)) (Fin.forall_fin_two.2 ⟨hR, (Nat.zero_add _).symm⟩))

theorem rd3 (c : Dev nD) (t : Fin cfg4.N) : iblk4 (F := Ideal) V c 3 t = V c main_v81 :=
  funext fun y => congrArg (V c main_v81) (emb_eq_zero win4_3 t (fun a => (idx_facts t a).2.1) y y fun _ => rfl)

theorem rd4 (c : Dev nD) (t : Fin cfg4.N) : iblk4 (F := Ideal) V c 4 t = V c main_v82 :=
  funext fun y => congrArg (V c main_v82) (emb_eq_zero win4_4 t (fun a => (idx_facts t a).2.2.1) y y fun _ => rfl)

theorem rd5 (c : Dev nD) (t : Fin cfg4.N) : iblk4 (F := Ideal) V c 5 t = V c main_v83 :=
  funext fun y => congrArg (V c main_v83) (emb_eq_zero win4_5 t (fun a => (idx_facts t a).2.2.2.1) y y fun _ => rfl)

theorem rd6 (c : Dev nD) (t : Fin cfg4.N) : iblk4 (F := Ideal) V c 6 t = V c main_v84 :=
  funext fun y => congrArg (V c main_v84) (emb_eq_zero win4_6 t (fun a => (idx_facts t a).2.2.2.2) y y fun _ => rfl)

theorem final (c : Dev nD) :
    (dat4 (F := Ideal) V c).arrAt 7 cfg4.N
      = bn (n := 50000) (C := 128) (comb (V c main_v80) (V c main_v61) (V c main_v31)) (V c main_v81) (V c main_v82) (V c main_v83) (V c main_v84) := by
  refine (dat4 (F := Ideal) V c).arrAt_eq_of_cover 7 _ (fun t _ => ?_) fun i => ?_
  · show (cfg4.win 7).cut (grid4.coords t) ((dat4 V c).after 7 t) = _
    rw [after4_7]
    funext y
    obtain ⟨p, q, rfl⟩ : ∃ (p : Fin 5000) (q : Fin 128), y = ix2 p q := ⟨y 0, y 1, eq_ix2 y⟩
    obtain ⟨R, hR⟩ := row_at N_4 t p
    show _ = bn _ _ _ _ _ (((cfg4.win 7).blk t).view.emb (ix2 p q))
    rw [emb7 t p q R hR]
    exact R2.out_bn p q R (rd0 V c t p q R hR) (rd1 V c t p q R hR) (rd2 V c t p R hR) (rd3 V c t) (rd4 V c t) (rd5 V c t) (rd6 V c t)
  · obtain ⟨t, p, h⟩ := exists_row N_4 (i 0)
    exact ⟨t, flush4_7 t, mem_set_of_emb _ _ _ ((emb7 t p (i 1) (i 0) h).trans (eq_ix2 i).symm)⟩

end Cert.KernelIdeal.R4
-- ==== Proof.LibRowGather.lean ====
import Idealize.ShloMosaic.Lib.ValueIdx

noncomputable section

namespace Cert.Lib.RowGather

open Idealize.ShloMosaic Idealize.ShloMosaic.ValueIdx

variable {α : Type}

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.LibSegmentSum.lean ====
import Idealize.ShloMosaic.PureOps.Ideal
import Idealize.ShloMosaic.PureOps.Contract
import Idealize.ShloMosaic.Lib.ValueIdx

noncomputable section

namespace Idealize.ShloMosaic.SegmentSum

open Idealize.ShloMosaic.ValueIdx

abbrev colIx {n : Nat} (i : Fin n) : (⟨2, ![n, 1]⟩ : Shape).Idx := ix2 i (0 : Fin 1)

-- An update lands on `o` exactly when, on every axis, its start plus its window coordinate is `o`'s coordinate.
theorem resultIdx?_eq_some_iff {s si u : Shape} (D : ScatterDims s si u) {w : Nat} (j : u.Idx) (idx : IVec si w) (o : s.Idx) :
    D.resultIdx? j idx = some o ↔ ∀ a, D.start j idx a + (D.window j a : Int) = ((o a).val : Int) := by
  unfold ScatterDims.resultIdx?
  split
  · rename_i h
    rw [Option.some.injEq]
    refine ⟨fun he a => ?_, fun ha => funext fun a => Fin.ext ?_⟩
    · have h0 : (D.start j idx a + (D.window j a : Int)).toNat = (o a).val := congrArg Fin.val (congrFun he a)
      have := h a
      omega
    · show (D.start j idx a + (D.window j a : Int)).toNat = (o a).val
      rw [ha a]; omega
  · rename_i h
    refine ⟨fun he => (nomatch he), fun ha => absurd (fun a => ?_) h⟩
    have := (o a).isLt
    rw [ha a]; omega

abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)
  (j : (⟨2, ![n, C]⟩ : Shape).Idx) (idx : IVec ⟨2, ![n, 1]⟩ w)

-- The operand's row axis is the one the words name: it starts at the word of the update's row and has no window coordinate.
private theorem cols_start0 : (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

private theorem cols_window0 : (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

-- The operand's column axis is the window axis: it starts at 0 and its window coordinate is the update's column.
private theorem cols_start1 : (dimsCols P C n wf).start j idx 1 = 0 := by
  unfold ScatterDims.start
  rw [dif_neg (show (1 : Fin 2) ∉ ([0] : List (Fin 2)) by decide)]

private theorem cols_window1 : (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

-- An update lands on entry (p, c) exactly when its word is `p` and it sits in column `c`.
private theorem cols_resultIdx_iff (p : Fin P) (c : Fin C) :
    (dimsCols P C n wf).resultIdx? j idx = some (ix2 p c)
      ↔ (idx (colIx (j 0))).toInt = (p.val : Int) ∧ j 1 = c := by
  rw [resultIdx?_eq_some_iff]
  refine ⟨fun h => ?_, fun ⟨h0, h1⟩ a => ?_⟩
  · have h0 := h 0
    have h1 := h 1
    rw [cols_start0, cols_window0] at h0
    rw [cols_start1, cols_window1] at h1
    change _ = (p.val : Int) at h0
    change _ = (c.val : Int) at h1
    exact ⟨by omega, Fin.ext (by omega)⟩
  · match a with
    | ⟨0, _⟩ =>
      show (dimsCols P C n wf).start j idx 0 + ((dimsCols P C n wf).window j 0 : Int) = (p.val : Int)
      rw [cols_start0, cols_window0, h0]; omega
    | ⟨1, _⟩ =>
      show (dimsCols P C n wf).start j idx 1 + ((dimsCols P C n wf).window j 1 : Int) = (c.val : Int)
      rw [cols_start1, cols_window1, ← h1]; omega
end Cols

-- Entry (p, c) ends at its own value plus the sum, over the words equal to `p`, of column `c` of the updates.
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  have hj : ∀ j ∈ Finset.univ.filter (fun j => (dimsCols P C n wf).resultIdx? j idx = some (ix2 p c)),
      (idx (colIx (j 0))).toInt = (p.val : Int) ∧ ix2 (j 0) c = j := fun j hj => by
    have h := (cols_resultIdx_iff wf j idx p c).mp (Finset.mem_filter.mp hj).2
    exact ⟨h.1, by rw [← h.2]; exact (eq_ix2 j).symm⟩
  refine Finset.sum_nbij' (fun j => (j 0 : Fin n)) (fun i => ix2 i c) ?_ ?_ ?_ ?_ ?_
  · exact fun j h => Finset.mem_filter.mpr ⟨Finset.mem_univ _, (hj j h).1⟩
  · exact fun i hi => Finset.mem_filter.mpr ⟨Finset.mem_univ _,
      (cols_resultIdx_iff wf (ix2 i c) idx p c).mpr ⟨(Finset.mem_filter.mp hi).2, rfl⟩⟩
  · exact fun j h => (hj j h).2
  · exact fun i _ => rfl
  · exact fun j h => congrArg upd (hj j h).2.symm

end Idealize.ShloMosaic.SegmentSum

end
-- ==== Proof.LibSegmentSumHost.lean ====
import proofs.«429700_j86320252715258_2_alg».proof.Proof.LibSegmentSum

noncomputable section

namespace Idealize.ShloMosaic.SegmentSum

open Idealize.ShloMosaic.ValueIdx

-- The accumulating scatter read at an entry: the operand's entry plus the sum of the updates whose word names its row.
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.KChainA.lean ====
import proofs.«429700_j86320252715258_2_alg».proof.Proof.SpecAll
import proofs.«429700_j86320252715258_2_alg».proof.Proof.KLevels
import proofs.«429700_j86320252715258_2_alg».proof.Proof.Reg0
import proofs.«429700_j86320252715258_2_alg».proof.Proof.Reg1
import proofs.«429700_j86320252715258_2_alg».proof.Proof.Reg2
import proofs.«429700_j86320252715258_2_alg».proof.Proof.Reg3
import proofs.«429700_j86320252715258_2_alg».proof.Proof.Reg4
import proofs.«429700_j86320252715258_2_alg».proof.Proof.LibRowOps
import proofs.«429700_j86320252715258_2_alg».proof.Proof.LibRowGather
import proofs.«429700_j86320252715258_2_alg».proof.Proof.LibSegmentSumHost
import Idealize.ShloMosaic.Lib.StableHlo.Run
import Idealize.ShloMosaic.Lib.StableHlo.Predicate
import Idealize.ShloMosaic.Lib.Pipeline.Value
import Idealize.ShloMosaic.Lib.IdealHost
import Idealize.ShloMosaic.Lib.ValueLayout
import Idealize.ShloMosaic.PureOps.Ideal.Laws

noncomputable section

namespace Cert.KernelIdeal.KChain

open Cert.KernelIdeal Cert.KernelIdeal.Gen Cert.Spec Cert.KernelIdeal.KLevels
open Idealize.ShloMosaic Idealize.ShloMosaic.TcCoe Idealize.ShloMosaic.ValueIdx Idealize.SL.Sem

/-- A vector cast to a one-row array is the vector laid out as a row. -/
theorem shapeCast_rowOf {p : Nat} {b x : Vc p} (h : (⟨1, ![p]⟩ : Shape).ShapeCasts ⟨2, ![1, p]⟩) (e : b = x) :
    shapeCast ⟨2, ![1, p]⟩ b h = rowOf x := by
  subst e; funext i; rw [eq_ix2 i]; exact shapeCast_a_1a_apply b h _ _

/-- A vector cast to a one-column array reads, at row i, the vector's entry i. -/
theorem shapeCast_col {n : Nat} {α : Type} (x : (⟨1, ![n]⟩ : Shape).Idx → α)
    (h : (⟨1, ![n]⟩ : Shape).ShapeCasts ⟨2, ![n, 1]⟩) : shapeCast ⟨2, ![n, 1]⟩ x h = fun i => x (ix1 (i 0)) := by
  funext i; rw [eq_ix2 i]; exact Cert.RowOps.shapeCast_a_a1_apply x h _ _

/-- A vector broadcast to a column and then along the rows: entry (e, c) is the vector's entry e. -/
theorem bcast_vec_cols_apply {a b : Nat} {α : Type} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (e : Fin a) (c : Fin b) :
    broadcastInDim ⟨2, ![a, b]⟩ ![0, 1] h2 (broadcastInDim ⟨2, ![a, 1]⟩ ![0] h1 v) (ix2 e c) = v (ix1 e) :=
  (StableHlo.Predicate.bcast_rows h1 h2 v e c).trans (congrArg v (funext fun | ⟨0, _⟩ => Fin.ext rfl))

/-- The aggregation's operations: rows named by the start words, scaled by edge weights, added at the end words. -/
def aggOps (h : FVec Ideal S50000x128 .bf16) (sc dc : IVec S1600000x1 32) (n : FVec Ideal S1600000 .f32) :
    FVec Ideal S50000x128 .f32 :=
  Host.scatterAdd scatter_S50000x128_S1600000x1_S1600000x128_1_0_0_1
    (broadcastInDim S50000x128 ![] bcast_S_S50000x128 (constant (F := Ideal) S_ .f32 0x00000000#32)) dc
    (mulf (extf .f32 (Host.gather gather_S50000x128_S1600000x1_S1600000x128_1_0_n_n_0_1_1128 h sc) bitsLt_bf16_f32)
      (broadcastInDim S1600000x128 ![0, 1] bcast_S1600000x1_S1600000x128_0_1
        (broadcastInDim S1600000x1 ![0] bcast_S1600000_S1600000x1_0 n)))

/-- The aggregation's operations compute the specification's aggregation. -/
theorem agg_term (h : FVec Ideal S50000x128 .bf16) (sc dc : IVec S1600000x1 32) (n : FVec Ideal S1600000 .f32) :
    aggOps h sc dc n = Spec.agg (C := 128) h sc dc n := by
  funext i
  obtain ⟨p, c, rfl⟩ : ∃ (p : Fin 50000) (c : Fin 128), i = ix2 p c := ⟨i 0, i 1, eq_ix2 i⟩
  unfold aggOps
  refine (SegmentSum.scatterAdd_cols_host (P := 50000) (C := 128) (n := 1600000)
    scatter_S50000x128_S1600000x1_S1600000x128_1_0_0_1_wf _ dc _ p c).trans ?_
  rw [broadcastInDim_scalar_apply, constant_apply, Ideal.ofBits_zero_f32, zero_add]
  unfold Spec.agg
  refine Finset.sum_congr rfl fun e _ => ?_
  rw [mulf_apply, extf_apply, bcast_vec_cols_apply]
  congr 1
  exact Cert.Lib.RowGather.gather_rows_apply (N := 50000) (C := 128) (R := 1600000) (by omega)
    gather_S50000x128_S1600000x1_S1600000x128_1_0_n_n_0_1_1128_wf h sc e c

section Host
variable (W : Valuation τ sig (Elt Ideal))

theorem g1 : StableHlo.after (hostOps0 (F := Ideal)) W main_v1 = HChain.srcV (W main_arg1) := by after_results; rfl
theorem g3 : StableHlo.after (hostOps0 (F := Ideal)) W main_v3 = HChain.dstV (W main_arg1) := by after_results; rfl
theorem g30 : StableHlo.after (hostOps0 (F := Ideal)) W main_v30 = HChain.norm (F := Ideal) (W main_arg1) (W main_arg2) := by
  after_results_simp <;> rfl
theorem g31 : StableHlo.after (hostOps0 (F := Ideal)) W main_v31
    = shapeCast _ (HChain.dinv (F := Ideal) (W main_arg1) (W main_arg2)) shapeCasts_S50000_S50000x1 := by
  after_results_simp <;> rfl
theorem g32 : StableHlo.after (hostOps0 (F := Ideal)) W main_v32 = shapeCast _ (W main_arg5) shapeCasts_S128_S1x128 := by
  after_results_simp <;> rfl
theorem g34 : StableHlo.after (hostOps1 (F := Ideal)) W main_v34 = shapeCast _ (W main_arg7) shapeCasts_S128_S1x128 := by
  after_results_simp <;> rfl
theorem g54 : StableHlo.after (hostOps2 (F := Ideal)) W main_v54
    = aggOps (W main_v35) (HChain.nodeCol (W main_v1)) (HChain.nodeCol (W main_v3)) (W main_v30) := by
  after_results_simp <;> rfl
theorem g55 : StableHlo.after (hostOps2 (F := Ideal)) W main_v55 = shapeCast _ (W main_arg14) shapeCasts_S128_S1x128 := by
  after_results_simp <;> rfl
theorem g56 : StableHlo.after (hostOps2 (F := Ideal)) W main_v56 = shapeCast _ (W main_arg15) shapeCasts_S128_S1x128 := by
  after_results_simp <;> rfl
theorem g57 : StableHlo.after (hostOps2 (F := Ideal)) W main_v57 = shapeCast _ (W main_arg16) shapeCasts_S128_S1x128 := by
  after_results_simp <;> rfl
theorem g58 : StableHlo.after (hostOps2 (F := Ideal)) W main_v58 = shapeCast _ (W main_arg17) shapeCasts_S128_S1x128 := by
  after_results_simp <;> rfl
theorem g60 : StableHlo.after (hostOps3 (F := Ideal)) W main_v60 = shapeCast _ (W main_arg9) shapeCasts_S128_S1x128 := by
  after_results_simp <;> rfl
theorem g80 : StableHlo.after (hostOps4 (F := Ideal)) W main_v80
    = aggOps (W main_v61) (HChain.nodeCol (W main_v1)) (HChain.nodeCol (W main_v3)) (W main_v30) := by
  after_results_simp <;> rfl
theorem g81 : StableHlo.after (hostOps4 (F := Ideal)) W main_v81 = shapeCast _ (W main_arg18) shapeCasts_S128_S1x128 := by
  after_results_simp <;> rfl
theorem g82 : StableHlo.after (hostOps4 (F := Ideal)) W main_v82 = shapeCast _ (W main_arg19) shapeCasts_S128_S1x128 := by
  after_results_simp <;> rfl
theorem g83 : StableHlo.after (hostOps4 (F := Ideal)) W main_v83 = shapeCast _ (W main_arg20) shapeCasts_S128_S1x128 := by
  after_results_simp <;> rfl
theorem g84 : StableHlo.after (hostOps4 (F := Ideal)) W main_v84 = shapeCast _ (W main_arg21) shapeCasts_S128_S1x128 := by
  after_results_simp <;> rfl

end Host

variable (m : (ℓ : Loc nD τ sig) → Buf (Elt Ideal) ℓ) (ρ : Dev nD → PrngReg)

/-- The network's inputs as the kernel's program finds them in its argument buffers. -/
def kin (c : Dev nD) : Cert.Spec.In where
  x := m ((c.tc : Thread nD τ).loc main_arg0)
  ei := m ((c.tc : Thread nD τ).loc main_arg1)
  ew := m ((c.tc : Thread nD τ).loc main_arg2)
  batch := m ((c.tc : Thread nD τ).loc main_arg3)
  W_in := m ((c.tc : Thread nD τ).loc main_arg4)
  b_in := m ((c.tc : Thread nD τ).loc main_arg5)
  W1 := m ((c.tc : Thread nD τ).loc main_arg6)
  b1 := m ((c.tc : Thread nD τ).loc main_arg7)
  W2 := m ((c.tc : Thread nD τ).loc main_arg8)
  b2 := m ((c.tc : Thread nD τ).loc main_arg9)
  Wmu := m ((c.tc : Thread nD τ).loc main_arg10)
  bmu := m ((c.tc : Thread nD τ).loc main_arg11)
  Wlv := m ((c.tc : Thread nD τ).loc main_arg12)
  blv := m ((c.tc : Thread nD τ).loc main_arg13)
  g1 := m ((c.tc : Thread nD τ).loc main_arg14)
  be1 := m ((c.tc : Thread nD τ).loc main_arg15)
  rm1 := m ((c.tc : Thread nD τ).loc main_arg16)
  rv1 := m ((c.tc : Thread nD τ).loc main_arg17)
  g2 := m ((c.tc : Thread nD τ).loc main_arg18)
  be2 := m ((c.tc : Thread nD τ).loc main_arg19)
  rm2 := m ((c.tc : Thread nD τ).loc main_arg20)
  rv2 := m ((c.tc : Thread nD τ).loc main_arg21)
  Wa1 := m ((c.tc : Thread nD τ).loc main_arg22)
  ba1 := m ((c.tc : Thread nD τ).loc main_arg23)
  Wa2 := m ((c.tc : Thread nD τ).loc main_arg24)
  ba2 := m ((c.tc : Thread nD τ).loc main_arg25)
  Wc1 := m ((c.tc : Thread nD τ).loc main_arg26)
  bc1 := m ((c.tc : Thread nD τ).loc main_arg27)
  Wc2 := m ((c.tc : Thread nD τ).loc main_arg28)
  bc2 := m ((c.tc : Thread nD τ).loc main_arg29)
  Wc3 := m ((c.tc : Thread nD τ).loc main_arg30)
  bc3 := m ((c.tc : Thread nD τ).loc main_arg31)
  Wn1 := m ((c.tc : Thread nD τ).loc main_arg32)
  bn1 := m ((c.tc : Thread nD τ).loc main_arg33)
  Wn2 := m ((c.tc : Thread nD τ).loc main_arg34)
  bn2 := m ((c.tc : Thread nD τ).loc main_arg35)

/-- What the first host stretch computes from the edges holds at every later boundary. -/
theorem e_v1 (k : Nat) (hk : 1 ≤ k) (c : Dev nD) : Vn m ρ k c main_v1 = HChain.srcV (kin m c).ei :=
  (keep m ρ 1 k hk c main_v1 (by decide)).trans
    ((g1 (W0 m ρ c)).trans (congrArg HChain.srcV (argAt m ρ 0 c main_arg1 (by decide))))
theorem e_v3 (k : Nat) (hk : 1 ≤ k) (c : Dev nD) : Vn m ρ k c main_v3 = HChain.dstV (kin m c).ei :=
  (keep m ρ 1 k hk c main_v3 (by decide)).trans
    ((g3 (W0 m ρ c)).trans (congrArg HChain.dstV (argAt m ρ 0 c main_arg1 (by decide))))
theorem e_v30 (k : Nat) (hk : 1 ≤ k) (c : Dev nD) : Vn m ρ k c main_v30 = (kin m c).nrm :=
  (keep m ρ 1 k hk c main_v30 (by decide)).trans ((g30 (W0 m ρ c)).trans (congrArg₂ (HChain.norm (F := Ideal))
    (argAt m ρ 0 c main_arg1 (by decide)) (argAt m ρ 0 c main_arg2 (by decide))))
theorem e_v31 (k : Nat) (hk : 1 ≤ k) (c : Dev nD) : Vn m ρ k c main_v31 = (kin m c).dcol :=
  (keep m ρ 1 k hk c main_v31 (by decide)).trans ((g31 (W0 m ρ c)).trans ((shapeCast_col _ _).trans
    (congrArg colOf (congrArg₂ (HChain.dinv (F := Ideal))
      (argAt m ρ 0 c main_arg1 (by decide)) (argAt m ρ 0 c main_arg2 (by decide))))))

/-- At any boundary the aggregation's operations on the edge buffers are the specification's aggregation. -/
theorem agg_at (k : Nat) (hk : 1 ≤ k) (c : Dev nD) (h : FVec Ideal S50000x128 .bf16) :
    aggOps h (HChain.nodeCol (Vn m ρ k c main_v1)) (HChain.nodeCol (Vn m ρ k c main_v3)) (Vn m ρ k c main_v30)
      = agg (C := 128) h (kin m c).src (kin m c).dst (kin m c).nrm := by
  rw [e_v1 m ρ k hk, e_v3 m ρ k hk, e_v30 m ρ k hk]; exact agg_term _ _ _ _

theorem w1_v32 (c : Dev nD) : Vn m ρ 1 c main_v32 = rowOf (kin m c).b_in :=
  (g32 (W0 m ρ c)).trans (shapeCast_rowOf shapeCasts_S128_S1x128 (argAt m ρ 0 c main_arg5 (by decide)))

theorem k_h0 (c : Dev nD) : Vn m ρ 2 c main_v33 = (kin m c).h0 :=
  ((hF0 m ρ c 3).symm.trans (R0.final (Vn m ρ 1) c)).trans (by
    rw [argAt m ρ 1 c main_arg0 (by decide), argAt m ρ 1 c main_arg4 (by decide), w1_v32]; rfl)

theorem w3_v34 (c : Dev nD) : Vn m ρ 3 c main_v34 = rowOf (kin m c).b1 :=
  (g34 (W2 m ρ c)).trans (shapeCast_rowOf shapeCasts_S128_S1x128 (argAt m ρ 2 c main_arg7 (by decide)))

theorem k_hl1 (k : Nat) (hk : 4 ≤ k) (c : Dev nD) :
    Vn m ρ k c main_v35 = lin (kin m c).h0 (kin m c).W1 (rowOf (kin m c).b1) :=
  (keep m ρ 4 k hk c main_v35 (by decide)).trans (((hF1 m ρ c 3).symm.trans (R1.final (Vn m ρ 3) c)).trans (by
    rw [(keep m ρ 2 3 (by decide) c main_v33 (by decide)).trans (k_h0 m ρ c), argAt m ρ 3 c main_arg6 (by decide), w3_v34]; rfl))

theorem k_agg1 (c : Dev nD) :
    Vn m ρ 5 c main_v54
      = agg (lin (kin m c).h0 (kin m c).W1 (rowOf (kin m c).b1)) (kin m c).src (kin m c).dst (kin m c).nrm := by
  exact (g54 (W4 m ρ c)).trans ((agg_at m ρ 4 (by decide) c (Vn m ρ 4 c main_v35)).trans
    (congrArg (agg · _ _ _) (k_hl1 m ρ 4 (by decide) c)))

theorem w5_v55 (c : Dev nD) : Vn m ρ 5 c main_v55 = rowOf (kin m c).g1 :=
  (g55 (W4 m ρ c)).trans (shapeCast_rowOf shapeCasts_S128_S1x128 (argAt m ρ 4 c main_arg14 (by decide)))
theorem w5_v56 (c : Dev nD) : Vn m ρ 5 c main_v56 = rowOf (kin m c).be1 :=
  (g56 (W4 m ρ c)).trans (shapeCast_rowOf shapeCasts_S128_S1x128 (argAt m ρ 4 c main_arg15 (by decide)))
theorem w5_v57 (c : Dev nD) : Vn m ρ 5 c main_v57 = rowOf (kin m c).rm1 :=
  (g57 (W4 m ρ c)).trans (shapeCast_rowOf shapeCasts_S128_S1x128 (argAt m ρ 4 c main_arg16 (by decide)))
theorem w5_v58 (c : Dev nD) : Vn m ρ 5 c main_v58 = rowOf (kin m c).rv1 :=
  (g58 (W4 m ρ c)).trans (shapeCast_rowOf shapeCasts_S128_S1x128 (argAt m ρ 4 c main_arg17 (by decide)))

theorem k_h1 (c : Dev nD) : Vn m ρ 6 c main_v59 = (kin m c).h1 :=
  ((hF2 m ρ c 7).symm.trans (R2.final (Vn m ρ 5) c)).trans (by
    rw [k_agg1, k_hl1 m ρ 5 (by decide), e_v31 m ρ 5 (by decide), w5_v55, w5_v56, w5_v57, w5_v58]; rfl)

theorem w7_v60 (c : Dev nD) : Vn m ρ 7 c main_v60 = rowOf (kin m c).b2 :=
  (g60 (W6 m ρ c)).trans (shapeCast_rowOf shapeCasts_S128_S1x128 (argAt m ρ 6 c main_arg9 (by decide)))

theorem k_hl2 (k : Nat) (hk : 8 ≤ k) (c : Dev nD) :
    Vn m ρ k c main_v61 = lin (kin m c).h1 (kin m c).W2 (rowOf (kin m c).b2) :=
  (keep m ρ 8 k hk c main_v61 (by decide)).trans (((hF3 m ρ c 3).symm.trans (R3.final (Vn m ρ 7) c)).trans (by
    rw [(keep m ρ 6 7 (by decide) c main_v59 (by decide)).trans (k_h1 m ρ c), argAt m ρ 7 c main_arg8 (by decide), w7_v60]; rfl))

theorem k_agg2 (c : Dev nD) :
    Vn m ρ 9 c main_v80
      = agg (lin (kin m c).h1 (kin m c).W2 (rowOf (kin m c).b2)) (kin m c).src (kin m c).dst (kin m c).nrm := by
  exact (g80 (W8 m ρ c)).trans ((agg_at m ρ 8 (by decide) c (Vn m ρ 8 c main_v61)).trans
    (congrArg (agg · _ _ _) (k_hl2 m ρ 8 (by decide) c)))

theorem w9_v81 (c : Dev nD) : Vn m ρ 9 c main_v81 = rowOf (kin m c).g2 :=
  (g81 (W8 m ρ c)).trans (shapeCast_rowOf shapeCasts_S128_S1x128 (argAt m ρ 8 c main_arg18 (by decide)))
theorem w9_v82 (c : Dev nD) : Vn m ρ 9 c main_v82 = rowOf (kin m c).be2 :=
  (g82 (W8 m ρ c)).trans (shapeCast_rowOf shapeCasts_S128_S1x128 (argAt m ρ 8 c main_arg19 (by decide)))
theorem w9_v83 (c : Dev nD) : Vn m ρ 9 c main_v83 = rowOf (kin m c).rm2 :=
  (g83 (W8 m ρ c)).trans (shapeCast_rowOf shapeCasts_S128_S1x128 (argAt m ρ 8 c main_arg20 (by decide)))
theorem w9_v84 (c : Dev nD) : Vn m ρ 9 c main_v84 = rowOf (kin m c).rv2 :=
  (g84 (W8 m ρ c)).trans (shapeCast_rowOf shapeCasts_S128_S1x128 (argAt m ρ 8 c main_arg21 (by decide)))

theorem k_h2 (c : Dev nD) : Vn m ρ 10 c main_v85 = (kin m c).h2 :=
  ((hF4 m ρ c 7).symm.trans (R4.final (Vn m ρ 9) c)).trans (by
    rw [k_agg2, k_hl2 m ρ 9 (by decide), e_v31 m ρ 9 (by decide), w9_v81, w9_v82, w9_v83, w9_v84]; rfl)

end Cert.KernelIdeal.KChain

end
-- ==== Proof.Reg5.lean ====
import proofs.«429700_j86320252715258_2_alg».proof.Proof.Gen.KernelIdeal.Frame
import proofs.«429700_j86320252715258_2_alg».proof.Proof.Spec
import proofs.«429700_j86320252715258_2_alg».proof.Proof.Reg1

namespace Cert.KernelIdeal.R5

open Gen Cert.Spec Cert.Blocks Idealize.ShloMosaic TcCoe ValueIdx

variable (V : (c : Dev nD) → (b : Ref sig .tc) → Buf (Elt Ideal) ((c : Thread nD τ).loc b))

-- This region's body casts the matrix to its own shape once more, which changes nothing.
theorem out_eq (x0 : Vec Ideal S5000x128 .f32) (x1 : Vec Ideal S128x128 .f32) (x2 : Vec Ideal S1x128 .f32) :
    out5_3 x0 x1 x2 = out1_3 x0 x1 x2 := by
  unfold out5_3 out1_3 k5_pay1 k1_pay1
  simp only [shapeCast_self]

theorem idx_facts : ∀ (t : Fin cfg5.N) (a : Fin 2),
    win5_0.index t a * win5_0.size a = ![t.val * 5000, 0] a ∧ win5_1.index t a = 0 ∧ win5_2.index t a = 0
    ∧ win5_3.index t a * win5_3.size a = ![t.val * 5000, 0] a :=
  (by decide +kernel : ∀ t : Fin grid5.N, _)

theorem emb3 (t : Fin cfg5.N) (p : Fin 5000) (q : Fin 128) (R : Fin 50000) (hR : R.val = t.val * 5000 + p.val) :
    ((cfg5.win 3).blk t).view.emb (ix2 p q) = ix2 R q :=
  emb_eq win5_3 t ![t.val * 5000, 0] (fun a => (idx_facts t a).2.2.2) (ix2 p q) (ix2 R q) (Fin.forall_fin_two.2 ⟨hR, (Nat.zero_add _).symm⟩)

theorem rd0 (c : Dev nD) (t : Fin cfg5.N) (p : Fin 5000) (k : Fin 128) (R : Fin 50000) (hR : R.val = t.val * 5000 + p.val) :
    iblk5 V c 0 t (ix2 p k) = V c main_v85 (ix2 R k) :=
  congrArg (V c main_v85) (emb_eq win5_0 t ![t.val * 5000, 0] (fun a => (idx_facts t a).1) (ix2 p k) (ix2 R k) (Fin.forall_fin_two.2 ⟨hR, (Nat.zero_add _).symm⟩))

theorem rd1 (c : Dev nD) (t : Fin cfg5.N) : iblk5 V c 1 t = V c main_v86 :=
  funext fun y => congrArg (V c main_v86) (emb_eq_zero win5_1 t (fun a => (idx_facts t a).2.1) y y fun _ => rfl)

theorem rd2 (c : Dev nD) (t : Fin cfg5.N) : iblk5 V c 2 t = V c main_v88 :=
  funext fun y => congrArg (V c main_v88) (emb_eq_zero win5_2 t (fun a => (idx_facts t a).2.2.1) y y fun _ => rfl)

theorem final (c : Dev nD) :
    (dat5 (F := Ideal) V c).arrAt 3 cfg5.N = lin (n := 50000) (k := 128) (p := 128) (V c main_v85) (V c main_v86) (V c main_v88) := by
  refine (dat5 V c).arrAt_eq_of_cover 3 _ (fun t _ => ?_) fun i => ?_
  · show (cfg5.win 3).cut (grid5.coords t) ((dat5 V c).after 3 t) = _
    rw [after5_3]
    funext j
    obtain ⟨p, q, rfl⟩ : ∃ (p : Fin 5000) (q : Fin 128), j = ix2 p q := ⟨j 0, j 1, eq_ix2 j⟩
    obtain ⟨R, hR⟩ := row_at N_5 t p
    show _ = lin _ _ _ (((cfg5.win 3).blk t).view.emb (ix2 p q))
    rw [emb3 t p q R hR]
    exact (congrFun (out_eq _ _ _) _).trans (R1.out_lin p q R (fun k => rd0 V c t p k R hR) (rd1 V c t) (rd2 V c t))
  · obtain ⟨t, p, h⟩ := exists_row N_5 (i 0)
    exact ⟨t, flush5_3 t, mem_set_of_emb _ _ _ ((emb3 t p (i 1) (i 0) h).trans (eq_ix2 i).symm)⟩

end Cert.KernelIdeal.R5
-- ==== Proof.Reg6.lean ====
import proofs.«429700_j86320252715258_2_alg».proof.Proof.Gen.KernelIdeal.Frame
import proofs.«429700_j86320252715258_2_alg».proof.Proof.Spec
import proofs.«429700_j86320252715258_2_alg».proof.Proof.LibRowOps
import Idealize.ShloMosaic.Lib.ValueLayout
import Idealize.ShloMosaic.PureOps.Ideal.Laws

noncomputable section

namespace Cert.KernelIdeal.R6

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 :=
  funext fun a => match a with | ⟨0, _⟩ => rfl | ⟨1, _⟩ => rfl

/-- The body at an entry: the aggregated entry plus the own entry times the square of the row's degree factor. -/
theorem pay_apply (d : Vec Ideal S5000x1 .f32) (h : Vec Ideal S5000x128 .bf16) (a : Vec Ideal S5000x128 .f32)
    (r : Fin 5000) (j : Fin 128) :
    k6_pay1 d h a (ix2 r j) = a (ix2 r j) + h (ix2 r j) * (d (ix2 r (0 : Fin 1)) * d (ix2 r (0 : Fin 1))) := by
  unfold k6_pay1
  simp only [addf_apply, mulf_apply, extf_apply, shapeCast_self, Cert.RowOps.broadcastTo_a1_ab_apply]

/-- Every input block sits at the output block's row offset, and the column offsets are zero. -/
theorem idx_facts : ∀ t : Fin cfg6.N, win6_0.index t 0 = win6_3.index t 0
    ∧ win6_0.index t 1 = win6_3.index t 1
    ∧ win6_1.index t 0 = win6_3.index t 0
    ∧ win6_1.index t 1 = win6_3.index t 1
    ∧ win6_2.index t 0 = win6_3.index t 0
    ∧ win6_2.index t 1 = 0
    ∧ win6_3.index t 0 ≤ 9
    ∧ win6_3.index t 1 = 0 :=
  (by decide +kernel : ∀ t : Fin grid6.N, _)

/-- Every block of rows is some point's. -/
theorem idx_onto : ∀ (q0 : Fin 10), ∃ t : Fin cfg6.N, win6_3.index t = ![q0.val, 0] :=
  (by decide +kernel : ∀ (q0 : Fin 10), ∃ t : Fin grid6.N, win6_3.index t = ![q0.val, 0])

abbrev G (c : Dev nD) : S50000x128.Idx → EReal :=
  comb (n := 50000) (C := 128) (V c main_v108) (V c main_v89) (V c main_v31)

/-- What point `t` writes back is block `t` of `G`. -/
theorem flushed_eq (c : Dev nD) (t : Fin cfg6.N) :
    (dat6 (F := Ideal) V c).flushed 3 t = ((cfg6.win 3).blk t).view.read (Elt Ideal) (G V c) := by
  show (cfg6.win 3).cut (grid6.coords t) ((dat6 (F := Ideal) V c).after 3 t) = _
  rw [after6_3]
  unfold out6_3
  rw [View.canon_unit_zero hz]
  simp only [View.ld_unit_zero (S := ⟨2, _⟩) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have ha : iblk6 V c 1 t (ix2 p q) = V c main_v108 (((cfg6.win 3).blk t).view.emb (ix2 p q)) :=
    congrArg (V c main_v108) (Shape.idx_ext₂ (show win6_1.index t 0 * 5000 + 1 * p.val = win6_3.index t 0 * 5000 + 1 * p.val by omega) (show win6_1.index t 1 * 128 + 1 * q.val = win6_3.index t 1 * 128 + 1 * q.val by omega))
  have hh : iblk6 V c 0 t (ix2 p q) = V c main_v89 (((cfg6.win 3).blk t).view.emb (ix2 p q)) :=
    congrArg (V c main_v89) (Shape.idx_ext₂ (show win6_0.index t 0 * 5000 + 1 * p.val = win6_3.index t 0 * 5000 + 1 * p.val by omega) (show win6_0.index t 1 * 128 + 1 * q.val = win6_3.index t 1 * 128 + 1 * q.val by omega))
  have hd : iblk6 V c 2 t (ix2 p (0 : Fin 1))
      = V c main_v31 (ix2 ((((cfg6.win 3).blk t).view.emb (ix2 p q) : S50000x128.Idx) 0) (0 : Fin 1)) :=
    congrArg (V c main_v31) (Shape.idx_ext₂ (show win6_2.index t 0 * 5000 + 1 * p.val = win6_3.index t 0 * 5000 + 1 * p.val by omega) (show win6_2.index t 1 * 1 + 1 * 0 = 0 by omega))
  show k6_pay1 (iblk6 V c 2 t) (iblk6 V c 0 t) (iblk6 V c 1 t) (ix2 p q) = G V c (((cfg6.win 3).blk t).view.emb (ix2 p q))
  rw [pay_apply, ha, hh, hd]
  rfl

/-- Every row lies in the block of rows that its quotient by 5000 names. -/
theorem cover (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  obtain ⟨t, ht⟩ := idx_onto ⟨(i 0).val / 5000, by omega⟩
  have q0 : win6_3.index t 0 = (i 0).val / 5000 := congrFun ht 0
  have q1 : win6_3.index t 1 = 0 := congrFun ht 1
  refine ⟨t, flush6_3 t, ?_⟩
  show i ∈ ((View.whole main_v109).slice (win6_3.rect t)).set
  rw [View.set_slice_whole, Rect.mem_set_unit]
  intro a
  match a with
  | ⟨0, _⟩ => show win6_3.index t 0 * 5000 ≤ (i 0).val ∧ (i 0).val < win6_3.index t 0 * 5000 + 5000; omega
  | ⟨1, _⟩ => show win6_3.index t 1 * 128 ≤ (i 1).val ∧ (i 1).val < win6_3.index t 1 * 128 + 128; omega

/-- The region's output: aggregated features plus the scaled own features. -/
theorem final (c : Dev nD) :
    (dat6 (F := Ideal) V c).arrAt 3 cfg6.N = comb (n := 50000) (C := 128) (V c main_v108) (V c main_v89) (V c main_v31) :=
  (dat6 (F := Ideal) V c).arrAt_eq_of_cover 3 (G V c) (fun t _ => flushed_eq V c t) (fun i => cover i)

end Cert.KernelIdeal.R6

end
-- ==== Proof.KChainB.lean ====
import proofs.«429700_j86320252715258_2_alg».proof.Proof.SpecLaws
import proofs.«429700_j86320252715258_2_alg».proof.Proof.KChainA
import proofs.«429700_j86320252715258_2_alg».proof.Proof.Reg5
import proofs.«429700_j86320252715258_2_alg».proof.Proof.Reg6

noncomputable section

namespace Cert.KernelIdeal.KChain

open Cert.KernelIdeal Cert.KernelIdeal.Gen Cert.Spec Cert.KernelIdeal.KLevels
open Idealize.ShloMosaic Idealize.ShloMosaic.TcCoe Idealize.ShloMosaic.ValueIdx Idealize.SL.Sem

/-- The slices of columns 0 to 63 and 64 to 127 are the left and the right half. -/
theorem slice_colsL {n : Nat} (y : Arr n 128) (h : (⟨2, ![n, 128]⟩ : Shape).Slices ![0, 0] ⟨2, ![n, 64]⟩) :
    extractStridedSlice ⟨2, ![n, 64]⟩ ![0, 0] y h = colsL y := by
  funext i; rw [eq_ix2 i]; exact slice2_axis1_apply 0 y h _ _ _ (Nat.zero_add _).symm
theorem slice_colsR {n : Nat} (y : Arr n 128) (h : (⟨2, ![n, 128]⟩ : Shape).Slices ![0, 64] ⟨2, ![n, 64]⟩) :
    extractStridedSlice ⟨2, ![n, 64]⟩ ![0, 64] y h = colsR y := by
  funext i; rw [eq_ix2 i]; exact slice2_axis1_apply 64 y h _ _ _ (Nat.add_comm _ 64)

/-- Two matrices of 64 columns laid side by side, and two vectors of 64 entries laid end to end. -/
def catM (A B : Arr 128 64) : Arr 128 128 :=
  concatenate S128x128 1 [⟨S128x64, A⟩, ⟨S128x64, B⟩] concatenates_S128x64_S128x64_S128x128_d1
def catV (a b : Vc 64) : Vc 128 :=
  concatenate S128 0 [⟨S64, a⟩, ⟨S64, b⟩] concatenates_S64_S64_S128_d0

theorem catM_left (A B : Arr 128 64) (r : Fin 128) (j : Fin 64) :
    catM A B (ix2 r ⟨j.val, by omega⟩) = A (ix2 r j) :=
  concatenate_pair_apply_left 1 A B concatenates_S128x64_S128x64_S128x128_d1 _ rfl (ix2 r j) fun
    | ⟨0, _⟩ => rfl
    | ⟨1, _⟩ => rfl
theorem catM_right (A B : Arr 128 64) (r : Fin 128) (j : Fin 64) :
    catM A B (ix2 r ⟨j.val + 64, by omega⟩) = B (ix2 r j) :=
  concatenate_pair_apply_right 1 A B concatenates_S128x64_S128x64_S128x128_d1 _ rfl rfl (ix2 r j)
    (fun
      | ⟨0, _⟩, _ => rfl
      | ⟨1, _⟩, hb => absurd (Fin.ext rfl) hb)
    rfl
theorem catV_left (a b : Vc 64) (j : Fin 64) : catV a b (ix1 ⟨j.val, by omega⟩) = a (ix1 j) :=
  concatenate_pair_apply_left 0 a b concatenates_S64_S64_S128_d0 _ rfl (ix1 j) fun | ⟨0, _⟩ => rfl
theorem catV_right (a b : Vc 64) (j : Fin 64) : catV a b (ix1 ⟨j.val + 64, by omega⟩) = b (ix1 j) :=
  concatenate_pair_apply_right 0 a b concatenates_S64_S64_S128_d0 _ rfl rfl (ix1 j)
    (fun | ⟨0, _⟩, hk => absurd (Fin.ext rfl) hk) rfl

section Fused
variable (I : Cert.Spec.In)

/-- The fused embedding layer: the two matrices side by side, one aggregation, one self term. -/
def ycat : Arr 50000 128 := lin I.h2 (catM I.Wmu I.Wlv) (rowOf (catV I.bmu I.blv))
def zcat : Arr 50000 128 := comb (agg (ycat I) I.src I.dst I.nrm) (ycat I) I.dcol

/-- Columns pass through the dense map, the aggregation and the self term by themselves. -/
theorem colsL_zcat : colsL (zcat I) = I.mu :=
  (colsL_comb_agg (ycat I) I.src I.dst I.nrm I.dcol).trans (by
    rw [show colsL (ycat I) = lin I.h2 I.Wmu (rowOf I.bmu) from colsL_lin I.h2 _ _ I.Wmu (rowOf I.bmu)
      (catM_left I.Wmu I.Wlv) (catV_left I.bmu I.blv)]; rfl)
theorem colsR_zcat : colsR (zcat I) = I.logvar :=
  (colsR_comb_agg (ycat I) I.src I.dst I.nrm I.dcol).trans (by
    rw [show colsR (ycat I) = lin I.h2 I.Wlv (rowOf I.blv) from colsR_lin I.h2 _ _ I.Wlv (rowOf I.blv)
      (catM_right I.Wmu I.Wlv) (catV_right I.bmu I.blv)]; rfl)

end Fused

section Host
variable (W : Valuation τ sig (Elt Ideal))

theorem g86 : StableHlo.after (hostOps5 (F := Ideal)) W main_v86 = catM (W main_arg10) (W main_arg12) := by
  after_results_simp <;> rfl
theorem g88 : StableHlo.after (hostOps5 (F := Ideal)) W main_v88
    = shapeCast _ (catV (W main_arg11) (W main_arg13)) shapeCasts_S128_S1x128 := by after_results_simp <;> rfl
theorem g108 : StableHlo.after (hostOps6 (F := Ideal)) W main_v108
    = aggOps (W main_v89) (HChain.nodeCol (W main_v1)) (HChain.nodeCol (W main_v3)) (W main_v30) := by
  after_results_simp <;> rfl
theorem g110 : StableHlo.after (hostOps7 (F := Ideal)) W main_v110
    = extractStridedSlice _ ![0, 0] (W main_v109) slices_S50000x128_S50000x64_0_0 := by after_results_simp <;> rfl
theorem g111 : StableHlo.after (hostOps7 (F := Ideal)) W main_v111
    = extractStridedSlice _ ![0, 64] (W main_v109) slices_S50000x128_S50000x64_0_64 := by after_results_simp <;> rfl

end Host

variable (m : (ℓ : Loc nD τ sig) → Buf (Elt Ideal) ℓ) (ρ : Dev nD → PrngReg)

theorem w11_v86 (c : Dev nD) : Vn m ρ 11 c main_v86 = catM (kin m c).Wmu (kin m c).Wlv :=
  (g86 (W10 m ρ c)).trans (congrArg₂ catM (argAt m ρ 10 c main_arg10 (by decide)) (argAt m ρ 10 c main_arg12 (by decide)))
theorem w11_v88 (c : Dev nD) : Vn m ρ 11 c main_v88 = rowOf (catV (kin m c).bmu (kin m c).blv) :=
  (g88 (W10 m ρ c)).trans (shapeCast_rowOf shapeCasts_S128_S1x128
    (congrArg₂ catV (argAt m ρ 10 c main_arg11 (by decide)) (argAt m ρ 10 c main_arg13 (by decide))))

theorem k_ycat (k : Nat) (hk : 12 ≤ k) (c : Dev nD) : Vn m ρ k c main_v89 = ycat (kin m c) :=
  (keep m ρ 12 k hk c main_v89 (by decide)).trans (((hF5 m ρ c 3).symm.trans (R5.final (Vn m ρ 11) c)).trans (by
    rw [(keep m ρ 10 11 (by decide) c main_v85 (by decide)).trans (k_h2 m ρ c), w11_v86, w11_v88]; rfl))

theorem w13_v108 (c : Dev nD) :
    Vn m ρ 13 c main_v108 = agg (ycat (kin m c)) (kin m c).src (kin m c).dst (kin m c).nrm :=
  (g108 (W12 m ρ c)).trans ((agg_at m ρ 12 (by decide) c (Vn m ρ 12 c main_v89)).trans (congrArg (agg · _ _ _) (k_ycat m ρ 12 (by decide) c)))

theorem k_zcat (c : Dev nD) : Vn m ρ 14 c main_v109 = zcat (kin m c) :=
  ((hF6 m ρ c 3).symm.trans (R6.final (Vn m ρ 13) c)).trans (by
    rw [w13_v108, k_ycat m ρ 13 (by decide), e_v31 m ρ 13 (by decide)]; rfl)

/-- The two embeddings are the two halves of the fused layer's columns, at every boundary after the slices. -/
theorem e_mu (k : Nat) (hk : 15 ≤ k) (c : Dev nD) : Vn m ρ k c main_v110 = (kin m c).mu :=
  (keep m ρ 15 k hk c main_v110 (by decide)).trans ((g110 (W14 m ρ c)).trans ((slice_colsL _ slices_S50000x128_S50000x64_0_0).trans
    ((congrArg colsL (k_zcat m ρ c)).trans (colsL_zcat (kin m c)))))
theorem e_logvar (k : Nat) (hk : 15 ≤ k) (c : Dev nD) : Vn m ρ k c main_v111 = (kin m c).logvar :=
  (keep m ρ 15 k hk c main_v111 (by decide)).trans ((g111 (W14 m ρ c)).trans ((slice_colsR _ slices_S50000x128_S50000x64_0_64).trans
    ((congrArg colsR (k_zcat m ρ c)).trans (colsR_zcat (kin m c)))))

theorem k_mu (c : Dev nD) : W20 (F := Ideal) m ρ c (Proc.devRef .tc main_v110) = (kin m c).mu := e_mu m ρ 20 (by decide) c
theorem k_logvar (c : Dev nD) : W20 (F := Ideal) m ρ c (Proc.devRef .tc main_v111) = (kin m c).logvar :=
  e_logvar m ρ 20 (by decide) c

end Cert.KernelIdeal.KChain

end
-- ==== Proof.Reg7.lean ====
import proofs.«429700_j86320252715258_2_alg».proof.Proof.Gen.KernelIdeal.Frame
import proofs.«429700_j86320252715258_2_alg».proof.Proof.Spec
import proofs.«429700_j86320252715258_2_alg».proof.Proof.LibPlainDot
import Idealize.ShloMosaic.Lib.ValueLayout
import Idealize.ShloMosaic.PureOps.Ideal.Laws

noncomputable section

namespace Cert.KernelIdeal.R7

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 :=
  funext fun a => match a with | ⟨0, _⟩ => rfl | ⟨1, _⟩ => rfl

theorem mm1_apply (A : FVec Ideal S5000x64 .bf16) (B : FVec Ideal S64x128 .bf16) (a : Fin 5000) (b : Fin 128) :
    matmul dot_S5000x64_S64x128_S5000x128_1_0_0_1_n_n none A B (constant (F := Ideal) S5000x128 .f32 0x00000000#32) (ix2 a b)
      = ∑ k : Fin 64, A (ix2 a k) * B (ix2 k b) :=
  Cert.Lib.PlainDot.matmul_plain_zero_apply none A B a b

theorem mm2_apply (A : FVec Ideal S5000x128 .bf16) (B : FVec Ideal S128x1 .bf16) (a : Fin 5000) (b : Fin 1) :
    matmul dot_S5000x128_S128x1_S5000x1_1_0_0_1_n_n none A B (constant (F := Ideal) S5000x1 .f32 0x00000000#32) (ix2 a b)
      = ∑ k : Fin 128, A (ix2 a k) * B (ix2 k b) :=
  Cert.Lib.PlainDot.matmul_plain_zero_apply none A B a b

theorem tanh_apply {s : Shape} {φ : FTy} (x : FVec Ideal s φ) (i : s.Idx) : tanh x i = Ideal.tanh (x i) := rfl

/-- The body at row `r` of a block: a dense map, the hyperbolic tangent, a dense map to one column. -/
theorem pay_apply (z : Vec Ideal S5000x64 .f32) (W1 : Vec Ideal S64x128 .f32) (b1 : Vec Ideal S1x128 .f32)
    (W2 : Vec Ideal S128x1 .f32) (b2 : Vec Ideal S1x1 .f32) (r : Fin 5000) (u : Fin 1) :
    k7_pay1 z W1 b1 W2 b2 (ix2 r u)
      = (∑ c : Fin 128, Ideal.tanh ((∑ k : Fin 64, z (ix2 r k) * W1 (ix2 k c)) + b1 (ix2 (0 : Fin 1) c)) * W2 (ix2 c u))
        + b2 (ix2 (0 : Fin 1) u) := by
  unfold k7_pay1
  simp only [addf_apply, truncf_apply, tanh_apply, shapeCast_self, mm1_apply, mm2_apply, broadcastTo_1b_ab_apply]

/-- It is the attention score at the array's index `i` when the feature block reads the features at row `i 0`. -/
theorem pay_spec (z : Vec Ideal S5000x64 .f32) (W1 : Vec Ideal S64x128 .f32) (b1 : Vec Ideal S1x128 .f32)
    (W2 : Vec Ideal S128x1 .f32) (b2 : Vec Ideal S1x1 .f32) (Z : Arr 50000 64) (r : Fin 5000) (u : Fin 1)
    (i : S50000x1.Idx) (hZ : ∀ k : Fin 64, z (ix2 r k) = Z (ix2 (i 0) k)) (hu : u = i 1) :
    k7_pay1 z W1 b1 W2 b2 (ix2 r u) = attn Z W1 b1 W2 b2 i := by
  subst hu
  refine (pay_apply z W1 b1 W2 b2 r _).trans ?_
  show _ = (∑ c : Fin 128, Ideal.tanh ((∑ k : Fin 64, Z (ix2 (i 0) k) * W1 (ix2 k c)) + b1 (ix2 (0 : Fin 1) c)) * W2 (ix2 c (i 1)))
      + b2 (ix2 (0 : Fin 1) (i 1))
  simp only [hZ]

/-- The feature blocks sit at the output block's row offset and at column offset zero. -/
theorem idx_facts : ∀ t : Fin cfg7.N, win7_0.index t 0 = win7_5.index t 0 ∧ win7_0.index t 1 = 0 :=
  (by decide +kernel : ∀ t : Fin grid7.N, _)

/-- The weight and bias windows' one block starts at offset zero on both axes: it is the whole array. -/
theorem off7 : ∀ t : Fin cfg7.N, (∀ a, win7_1.index t a * win7_1.size a = 0) ∧ (∀ a, win7_2.index t a * win7_2.size a = 0)
    ∧ (∀ a, win7_3.index t a * win7_3.size a = 0) ∧ (∀ a, win7_4.index t a * win7_4.size a = 0) :=
  (by decide +kernel : ∀ t : Fin grid7.N, _)

/-- Every block of rows is some point's. -/
theorem idx_onto : ∀ (q0 : Fin 10), ∃ t : Fin cfg7.N, win7_5.index t = ![q0.val, 0] :=
  (by decide +kernel : ∀ (q0 : Fin 10), ∃ t : Fin grid7.N, win7_5.index t = ![q0.val, 0])

abbrev G (c : Dev nD) : S50000x1.Idx → EReal :=
  attn (n := 50000) (V c main_v110) (V c main_arg22) (V c main_v112) (V c main_arg24) (V c main_v113)

/-- What point `t` writes back is block `t` of `G`. -/
theorem flushed_eq (c : Dev nD) (t : Fin cfg7.N) :
    (dat7 (F := Ideal) V c).flushed 5 t = ((cfg7.win 5).blk t).view.read (Elt Ideal) (G V c) := by
  show (cfg7.win 5).cut (grid7.coords t) ((dat7 (F := Ideal) V c).after 5 t) = _
  rw [after7_5]
  unfold out7_5
  rw [View.canon_unit_zero hz]
  simp only [View.ld_unit_zero (S := ⟨2, _⟩) hz]
  obtain ⟨e0, e1⟩ := idx_facts t
  obtain ⟨o1, o2, o3, o4⟩ := off7 t
  rw [show iblk7 V c 1 t = V c main_arg22 from Memref.read_access_unit_zero _ main_arg22 (funext o1) _ _,
    show iblk7 V c 2 t = V c main_v112 from Memref.read_access_unit_zero _ main_v112 (funext o2) _ _,
    show iblk7 V c 3 t = V c main_arg24 from Memref.read_access_unit_zero _ main_arg24 (funext o3) _ _,
    show iblk7 V c 4 t = V c main_v113 from Memref.read_access_unit_zero _ main_v113 (funext o4) _ _]
  funext j
  obtain ⟨p, q, rfl⟩ : ∃ (p : Fin 5000) (q : Fin 1), j = ix2 p q := ⟨j 0, j 1, eq_ix2 j⟩
  show k7_pay1 (iblk7 V c 0 t) (V c main_arg22) (V c main_v112) (V c main_arg24) (V c main_v113) (ix2 p q)
      = G V c (((cfg7.win 5).blk t).view.emb (ix2 p q))
  exact pay_spec _ _ _ _ _ (V c main_v110) p q _ (fun k => congrArg (V c main_v110) (Shape.idx_ext₂ (show win7_0.index t 0 * 5000 + 1 * p.val = win7_5.index t 0 * 5000 + 1 * p.val by omega) (show win7_0.index t 1 * 64 + 1 * k.val = k.val by omega))) (Subsingleton.elim _ _)

/-- Every row lies in the block of rows that its quotient by 5000 names. -/
theorem cover (i : S50000x1.Idx) :
    ∃ t : Fin cfg7.N, (cfg7.win 5).flush t = true ∧ i ∈ ((cfg7.win 5).blk t).view.set := by
  have hi0 : (i 0).val < 50000 := (i 0).isLt
  have hi1 : (i 1).val < 1 := (i 1).isLt
  obtain ⟨t, ht⟩ := idx_onto ⟨(i 0).val / 5000, by omega⟩
  have q0 : win7_5.index t 0 = (i 0).val / 5000 := congrFun ht 0
  have q1 : win7_5.index t 1 = 0 := congrFun ht 1
  refine ⟨t, flush7_5 t, ?_⟩
  show i ∈ ((View.whole main_v114).slice (win7_5.rect t)).set
  rw [View.set_slice_whole, Rect.mem_set_unit]
  intro a
  match a with
  | ⟨0, _⟩ => show win7_5.index t 0 * 5000 ≤ (i 0).val ∧ (i 0).val < win7_5.index t 0 * 5000 + 5000; omega
  | ⟨1, _⟩ => show win7_5.index t 1 * 1 ≤ (i 1).val ∧ (i 1).val < win7_5.index t 1 * 1 + 1; omega

/-- The region's output: the attention score of every node. -/
theorem final (c : Dev nD) :
    (dat7 (F := Ideal) V c).arrAt 5 cfg7.N
      = attn (n := 50000) (V c main_v110) (V c main_arg22) (V c main_v112) (V c main_arg24) (V c main_v113) :=
  (dat7 (F := Ideal) V c).arrAt_eq_of_cover 5 (G V c) (fun t _ => flushed_eq V c t) (fun i => cover i)

end Cert.KernelIdeal.R7

end
-- ==== Proof.Reg8.lean ====
import proofs.«429700_j86320252715258_2_alg».proof.Proof.Gen.KernelIdeal.Frame
import proofs.«429700_j86320252715258_2_alg».proof.Proof.Spec
import proofs.«429700_j86320252715258_2_alg».proof.Proof.LibRowOps
import Idealize.ShloMosaic.Lib.ValueLayout
import Idealize.ShloMosaic.PureOps.Ideal.Laws

noncomputable section

namespace Cert.KernelIdeal.R8

open Cert.KernelIdeal Cert.KernelIdeal.Gen Cert.Spec
open Idealize.ShloMosaic Idealize.ShloMosaic.TcCoe Idealize.ShloMosaic.ValueIdx Idealize.SL.Sem
open Idealize.ShloMosaic.Pipeline (Dat)

def rowAt (k : ℕ) (r : Fin 5000) : Fin 50000 := ⟨(k * 5000 + r.val) % 50000, Nat.mod_lt _ (by decide)⟩

theorem sum_blocks (f : Fin 50000 → EReal) :
    ∑ k ∈ Finset.range 10, ∑ r : Fin 5000, f (rowAt k r) = ∑ q : Fin 50000, f q := by
  rw [Finset.sum_range (fun k => ∑ r : Fin 5000, f (rowAt k r))]
  rw [← Fintype.sum_prod_type' (fun (k : Fin 10) (r : Fin 5000) => f (rowAt k.val r))]
  refine Fintype.sum_equiv (finProdFinEquiv (m := 10) (n := 5000)) _ _ fun x => ?_
  refine congrArg f (Fin.ext ?_)
  show (x.1.val * 5000 + x.2.val) % 50000 = x.2.val + 5000 * x.1.val
  have h1 := x.1.isLt
  have h2 := x.2.isLt
  omega

def oh (w : BitVec 32) (b : Fin 64) : EReal := if BitVec.ofNat 32 b.val = w then 1 else 0

theorem ofNat_eq_iff (w : BitVec 32) (b : Fin 64) : BitVec.ofNat 32 b.val = w ↔ w.toInt = (b.val : Int) := by
  have hb : ∀ b : Fin 64, (BitVec.ofNat 32 b.val).toInt = (b.val : Int) := by decide
  exact ⟨fun h => h ▸ hb b, fun h => BitVec.eq_of_toInt_eq ((hb b).trans h.symm)⟩

theorem sum_oh (lab : Fin 50000 → BitVec 32) (w : Fin 50000 → EReal) (b : Fin 64) :
    ∑ q : Fin 50000, oh (lab q) b * w q
      = ∑ q ∈ Finset.univ.filter (fun q : Fin 50000 => (lab q).toInt = (b.val : Int)), w q := by
  rw [Finset.sum_filter]
  refine Finset.sum_congr rfl fun q _ => ?_
  unfold oh
  by_cases h : BitVec.ofNat 32 b.val = lab q
  · rw [if_pos h, if_pos ((ofNat_eq_iff _ _).mp h), one_mul]
  · rw [if_neg h, if_neg (fun h' => h ((ofNat_eq_iff _ _).mpr h')), zero_mul]

theorem pay3_apply (lbl : Vec Ideal S5000x1 .i32) (r : Fin 5000) (b : Fin 64) :
    k8_pay3 (F := Ideal) lbl (ix2 r b) = oh (lbl (ix2 r (0 : Fin 1))) b := by
  unfold k8_pay3
  dsimp only
  rw [truncf_apply, sitofp_apply, extui_apply]
  show FloatOps.sitofp (F := Ideal) .f32 ((IntOp.cmpi .eq (iota .tc S5000x64 32 [1] iota_S5000x64_d1_w32 (ix2 r b)) (broadcastTo S5000x64 (shapeCast S5000x1 lbl shapeCasts_S5000x1_S5000x1) broadcasts_S5000x1_S5000x64 (ix2 r b))).setWidth 32) = _
  rw [iota_single_apply, shapeCast_self, Cert.RowOps.broadcastTo_a1_ab_apply]
  show (((BitVec.setWidth 32 (BitVec.ofBool (BitVec.ofNat 32 b.val == lbl (ix2 r (0 : Fin 1))))).toInt : ℝ) : EReal) = _
  unfold oh
  by_cases h : BitVec.ofNat 32 b.val = lbl (ix2 r (0 : Fin 1))
  · rw [if_pos h, beq_iff_eq.mpr h]
    simp
  · rw [if_neg h, beq_eq_false_iff_ne.mpr h]
    simp

theorem dotT_lhs1 (j : S64x64.Idx) (q : dot_S5000x64_S5000x64_S64x64_0_0_1_1_n_n.contr.Idx) :
    (dot_S5000x64_S5000x64_S64x64_0_0_1_1_n_n.lhsIdx j q 1).val = (j 0).val := by
  unfold DotDims.lhsIdx
  rw [dif_neg (show ¬(1 : Fin S5000x64.rank) ∈ dot_S5000x64_S5000x64_S64x64_0_0_1_1_n_n.lhsBatch by decide),
    dif_pos (show (1 : Fin S5000x64.rank) ∈ dot_S5000x64_S5000x64_S64x64_0_0_1_1_n_n.lhsNonContracting by decide)]
  rfl

theorem dotT_rhs1 (j : S64x64.Idx) (q : dot_S5000x64_S5000x64_S64x64_0_0_1_1_n_n.contr.Idx) :
    (dot_S5000x64_S5000x64_S64x64_0_0_1_1_n_n.rhsIdx j q 1).val = (j 1).val := by
  unfold DotDims.rhsIdx
  rw [dif_neg (show ¬(1 : Fin S5000x64.rank) ∈ dot_S5000x64_S5000x64_S64x64_0_0_1_1_n_n.rhsBatch by decide),
    dif_pos (show (1 : Fin S5000x64.rank) ∈ dot_S5000x64_S5000x64_S64x64_0_0_1_1_n_n.rhsNonContracting by decide)]
  rfl

theorem dotT_apply {φ₁ φ₂ : FTy} (A : FVec Ideal S5000x64 φ₁) (B : FVec Ideal S5000x64 φ₂) (b l : Fin 64) :
    matmul dot_S5000x64_S5000x64_S64x64_0_0_1_1_n_n none A B (constant (F := Ideal) S64x64 .f32 0x00000000#32) (ix2 b l)
      = ∑ r : Fin 5000, A (ix2 r b) * B (ix2 r l) := by
  show FloatOps.matmul dot_S5000x64_S5000x64_S64x64_0_0_1_1_n_n none A B _ (ix2 b l) = _
  rw [Ideal.matmul_constant_zero_apply,
    ← Equiv.sum_comp (contrEquiv1 dot_S5000x64_S5000x64_S64x64_0_0_1_1_n_n 5000 rfl rfl).symm]
  refine Finset.sum_congr rfl fun k _ => ?_
  have hk := contrEquiv1_symm_val dot_S5000x64_S5000x64_S64x64_0_0_1_1_n_n 5000 rfl rfl k
  have el : dot_S5000x64_S5000x64_S64x64_0_0_1_1_n_n.lhsIdx (ix2 b l)
      ((contrEquiv1 dot_S5000x64_S5000x64_S64x64_0_0_1_1_n_n 5000 rfl rfl).symm k) = ix2 k b :=
    Shape.idx_ext₂ ((dot_S5000x64_S5000x64_S64x64_0_0_1_1_n_n.lhsIdx_val_of_single rfl _ _).trans hk) (dotT_lhs1 _ _)
  have er : dot_S5000x64_S5000x64_S64x64_0_0_1_1_n_n.rhsIdx (ix2 b l)
      ((contrEquiv1 dot_S5000x64_S5000x64_S64x64_0_0_1_1_n_n 5000 rfl rfl).symm k) = ix2 k l :=
    Shape.idx_ext₂ ((dot_S5000x64_S5000x64_S64x64_0_0_1_1_n_n.rhsIdx_val_of_single rfl _ _).trans hk) (dotT_rhs1 _ _)
  rw [el, er]

theorem pay5_apply (lbl : Vec Ideal S5000x1 .i32) (z : Vec Ideal S5000x64 .f32) (a : Vec Ideal S5000x1 .f32)
    (acc : Vec Ideal S64x64 .f32) (b l : Fin 64) :
    k8_pay5 (F := Ideal) lbl z a acc (ix2 b l)
      = acc (ix2 b l) + ∑ r : Fin 5000, oh (lbl (ix2 r (0 : Fin 1))) b * (z (ix2 r l) * a (ix2 r (0 : Fin 1))) := by
  unfold k8_pay5
  rw [addf_apply, shapeCast_self]
  refine congrArg (acc (ix2 b l) + ·) ?_
  refine (dotT_apply _ _ b l).trans ?_
  refine Finset.sum_congr rfl fun r _ => ?_
  rw [pay3_apply, truncf_apply, mulf_apply]
  unfold k8_pay4
  rw [shapeCast_self, shapeCast_self, Cert.RowOps.broadcastTo_a1_ab_apply]

theorem pay6_apply (lbl : Vec Ideal S5000x1 .i32) (z : Vec Ideal S5000x64 .f32)
    (acc : Vec Ideal S64x64 .f32) (b l : Fin 64) :
    k8_pay6 (F := Ideal) lbl z acc (ix2 b l)
      = acc (ix2 b l) + ∑ r : Fin 5000, oh (lbl (ix2 r (0 : Fin 1))) b * z (ix2 r l) := by
  unfold k8_pay6
  rw [addf_apply, shapeCast_self]
  refine congrArg (acc (ix2 b l) + ·) ?_
  refine (dotT_apply _ _ b l).trans ?_
  refine Finset.sum_congr rfl fun r _ => ?_
  rw [pay3_apply, truncf_apply]
  unfold k8_pay4
  rw [shapeCast_self]

theorem pay1_apply (i : S64x64.Idx) : k8_pay1 (F := Ideal) i = 0 := by
  unfold k8_pay1
  show Ideal.ofBits .f32 0x00000000#32 = 0
  exact Ideal.ofBits_zero_f32

theorem pay2_apply (i : S64x64.Idx) : k8_pay2 (F := Ideal) i = 0 := by
  unfold k8_pay2
  show Ideal.ofBits .f32 0x00000000#32 = 0
  exact Ideal.ofBits_zero_f32

section Pieces

variable {F : FTy → Type} [FloatOps F]

theorem hz : (![0, 0] : Fin 2 → Nat) = fun _ => 0 := funext fun a => by fin_cases a <;> rfl

variable (c : Dev nD) (i : grid8.Coords) (a1 : Memref sig .tc .vmem S5000x64 .f32) (h1 : a1.IsWhole)
  (a2 : Memref sig .tc .vmem S5000x1 .f32) (h2 : a2.IsWhole) (a3 : Memref sig .tc .vmem S5000x1 .i32) (h3 : a3.IsWhole)
  (a4 : Memref sig .tc .vmem S64x64 .f32) (h4 : a4.IsWhole) (a5 : Memref sig .tc .vmem S64x64 .f32) (h5 : a5.IsWhole)
  (x0 : Vec F S5000x64 .f32) (x1 : Vec F S5000x1 .f32) (x2 : Vec F S5000x1 .i32)

/-- At a later point each accumulator, holding `xo`, is left at its update by the point's three blocks. -/
theorem out8_B_eq (hc : ¬cond8_0 i) (xo3 xo4 : Vec F S64x64 .f32) :
    out8_B_3 c i a1 h1 a2 h2 a3 h3 a4 h4 a5 h5 hc x0 x1 x2 xo3 xo4 = k8_pay5 x2 x0 x1 xo3
    ∧ out8_B_4 c i a1 h1 a2 h2 a3 h3 a4 h4 a5 h5 hc x0 x1 x2 xo3 xo4 = k8_pay6 x2 x0 xo4 := by
  unfold out8_B_3 out8_B_4
  rw [View.read_writes_eq_canon _ _ _ (cover8_B_3 c i a1 h1 a2 h2 a3 h3 a4 h4 a5 h5 hc x0 x1 x2 xo3 xo4),
    View.read_writes_eq_canon _ _ _ (cover8_B_4 c i a1 h1 a2 h2 a3 h3 a4 h4 a5 h5 hc x0 x1 x2 xo3 xo4)]
  unfold kernelRun8_B
  dsimp only
  sl_unfold_words
  rw [View.canon_unit_zero hz, View.canon_unit_zero hz]
  simp only [View.readAt_eq_ld, h1.read_unread, h2.read_unread, h3.read_unread, h4.read_unread, h5.read_unread,
    View.ld_unit_zero (S := ⟨2, _⟩) hz]
  exact ⟨trivial, trivial⟩

/-- At the first point each accumulator is set to zero and then left at the update of that zero block. -/
theorem out8_A_eq (hc : cond8_0 i) :
    out8_A_3 c i a1 h1 a2 h2 a3 h3 a4 h4 a5 h5 hc x0 x1 x2 = k8_pay5 x2 x0 x1 (k8_pay1 (F := F))
    ∧ out8_A_4 c i a1 h1 a2 h2 a3 h3 a4 h4 a5 h5 hc x0 x1 x2 = k8_pay6 x2 x0 (k8_pay2 (F := F)) := by
  unfold out8_A_3 out8_A_4
  rw [View.read_writes_eq_canon _ _ _ (cover8_A_3 c i a1 h1 a2 h2 a3 h3 a4 h4 a5 h5 hc x0 x1 x2),
    View.read_writes_eq_canon _ _ _ (cover8_A_4 c i a1 h1 a2 h2 a3 h3 a4 h4 a5 h5 hc x0 x1 x2)]
  unfold kernelRun8_A
  dsimp only
  sl_unfold_words
  rw [View.canon_cons_unit_zero (S := S64x64) hz, View.canon_cons_unit_zero (S := S64x64) hz]
  simp only [View.readAt_eq_ld, h1.read_unread, h2.read_unread, h3.read_unread, View.readCov_unit_zero (S := S64x64) _ hz,
    View.ld_unit_zero (S := ⟨2, _⟩) hz]
  exact ⟨trivial, trivial⟩

end Pieces

variable (V : (c : Dev nD) → (b : Ref sig .tc) → Buf (Elt Ideal) ((c : Thread nD τ).loc b))

/-- The node embeddings, the attention weights and the label words the region finds, and the blocks read at point `t`. -/
abbrev zarr (c : Dev nD) : Vec Ideal S50000x64 .f32 := V c main_v110
abbrev aarr (c : Dev nD) : Vec Ideal S50000x1 .f32 := V c main_v125
abbrev larr (c : Dev nD) : Vec Ideal S50000x1 .i32 := V c main_v126
abbrev zblk (c : Dev nD) (t : Fin cfg8.N) : Vec Ideal S5000x64 .f32 := iblk8 V c 0 t
abbrev ablk (c : Dev nD) (t : Fin cfg8.N) : Vec Ideal S5000x1 .f32 := iblk8 V c 1 t
abbrev lblk (c : Dev nD) (t : Fin cfg8.N) : Vec Ideal S5000x1 .i32 := iblk8 V c 2 t

/-- At point `t` each input window sits at block `t` along the rows and at block 0 along the columns. -/
theorem index8 : ∀ t : Fin cfg8.N, (win8_0.index t 0 = t.val ∧ win8_0.index t 1 = 0)
    ∧ (win8_1.index t 0 = t.val ∧ win8_1.index t 1 = 0) ∧ win8_2.index t 0 = t.val ∧ win8_2.index t 1 = 0 :=
  (by decide +kernel : ∀ t : Fin grid8.N, _)

/-- So row `r` of a block at point `t` is row `5000 t + r` of its array. -/
theorem blk_apply (c : Dev nD) (t : Fin cfg8.N) (r : Fin 5000) (l : Fin 64) :
    zblk V c t (ix2 r l) = zarr V c (ix2 (rowAt t.val r) l)
    ∧ ablk V c t (ix2 r (0 : Fin 1)) = aarr V c (ix2 (rowAt t.val r) (0 : Fin 1))
    ∧ lblk V c t (ix2 r (0 : Fin 1)) = larr V c (ix2 (rowAt t.val r) (0 : Fin 1)) := by
  have hN : t.val < 10 := lt_of_lt_of_eq t.isLt (show cfg8.N = 10 from N_8)
  obtain ⟨⟨e0, e1⟩, ⟨e2, e3⟩, e4, e5⟩ := index8 t
  exact ⟨congrArg (V c main_v110) (Shape.idx_ext₂ (show win8_0.index t 0 * 5000 + 1 * r.val = (t.val * 5000 + r.val) % 50000 by omega) (show win8_0.index t 1 * 64 + 1 * l.val = l.val by omega)),
    congrArg (V c main_v125) (Shape.idx_ext₂ (show win8_1.index t 0 * 5000 + 1 * r.val = (t.val * 5000 + r.val) % 50000 by omega) (show win8_1.index t 1 * 1 + 1 * 0 = 0 by omega)),
    congrArg (V c main_v126) (Shape.idx_ext₂ (show win8_2.index t 0 * 5000 + 1 * r.val = (t.val * 5000 + r.val) % 50000 by omega) (show win8_2.index t 1 * 1 + 1 * 0 = 0 by omega))⟩

/-- The terms, over the nodes of the blocks 0, …, n, of entry `b` of a pooled array with node labels `lab` and node weights `w`. -/
def part (lab : Fin 50000 → BitVec 32) (w : Fin 50000 → EReal) (n : ℕ) (b : Fin 64) : EReal :=
  ∑ k ∈ Finset.range (n + 1), ∑ r : Fin 5000, oh (lab (rowAt k r)) b * w (rowAt k r)

/-- All ten blocks together: the weights of the nodes whose label reads `b`. -/
theorem part_last (lab : Fin 50000 → BitVec 32) (w : Fin 50000 → EReal) (b : Fin 64) :
    part lab w 9 b = ∑ q ∈ Finset.univ.filter (fun q : Fin 50000 => (lab q).toInt = (b.val : Int)), w q := by
  unfold part
  rw [sum_blocks fun q => oh (lab q) b * w q]
  exact sum_oh lab w b

/-- Node `q`'s label word, and its weight in column `l` of the first and of the second pooled array. -/
abbrev lb (c : Dev nD) (q : Fin 50000) : BitVec 32 := larr V c (ix2 q (0 : Fin 1))
abbrev w3 (c : Dev nD) (l : Fin 64) (q : Fin 50000) : EReal := zarr V c (ix2 q l) * aarr V c (ix2 q (0 : Fin 1))
abbrev w4 (c : Dev nD) (l : Fin 64) (q : Fin 50000) : EReal := zarr V c (ix2 q l)

/-- An update at point `t` adds the terms of block `t`'s nodes. -/
theorem step3 (c : Dev nD) (t : Fin cfg8.N) (acc : Vec Ideal S64x64 .f32) (b l : Fin 64) :
    k8_pay5 (F := Ideal) (lblk V c t) (zblk V c t) (ablk V c t) acc (ix2 b l) = acc (ix2 b l) + ∑ r : Fin 5000, oh (lb V c (rowAt t.val r)) b * w3 V c l (rowAt t.val r) := by
  rw [pay5_apply]
  refine congrArg (acc (ix2 b l) + ·) (Finset.sum_congr rfl fun r _ => ?_)
  obtain ⟨bz, ba, bl⟩ := blk_apply V c t r l
  rw [bl, bz, ba]

theorem step4 (c : Dev nD) (t : Fin cfg8.N) (acc : Vec Ideal S64x64 .f32) (b l : Fin 64) :
    k8_pay6 (F := Ideal) (lblk V c t) (zblk V c t) acc (ix2 b l) = acc (ix2 b l) + ∑ r : Fin 5000, oh (lb V c (rowAt t.val r)) b * w4 V c l (rowAt t.val r) := by
  rw [pay6_apply]
  refine congrArg (acc (ix2 b l) + ·) (Finset.sum_congr rfl fun r _ => ?_)
  obtain ⟨bz, ba, bl⟩ := blk_apply V c t r l
  rw [bl, bz]

/-- After the first point the accumulators hold the terms of block 0. -/
theorem outs_A (c : Dev nD) (t : Fin cfg8.N) (h0 : t.val % 10 = 0) (b l : Fin 64) :
    (outsAt8 V c t.val t.isLt).1 (ix2 b l) = ∑ r : Fin 5000, oh (lb V c (rowAt t.val r)) b * w3 V c l (rowAt t.val r)
    ∧ (outsAt8 V c t.val t.isLt).2 (ix2 b l) = ∑ r : Fin 5000, oh (lb V c (rowAt t.val r)) b * w4 V c l (rowAt t.val r) := by
  rw [outsAt8_A V c t h0]
  dsimp only
  rw [(out8_A_eq ..).1, (out8_A_eq ..).2, step3 V c t, step4 V c t, pay1_apply, pay2_apply, zero_add, zero_add]
  exact ⟨rfl, rfl⟩

/-- After a later point they hold what they held plus the terms of the point's block. -/
theorem outs_B (c : Dev nD) (t : Fin cfg8.N) (h0 : ¬t.val % 10 = 0) (b l : Fin 64) :
    (outsAt8 V c t.val t.isLt).1 (ix2 b l) = (outsAt8 V c (t.val - 1) (Nat.lt_of_le_of_lt (Nat.sub_le _ _) t.isLt)).1 (ix2 b l) + ∑ r : Fin 5000, oh (lb V c (rowAt t.val r)) b * w3 V c l (rowAt t.val r)
    ∧ (outsAt8 V c t.val t.isLt).2 (ix2 b l) = (outsAt8 V c (t.val - 1) (Nat.lt_of_le_of_lt (Nat.sub_le _ _) t.isLt)).2 (ix2 b l) + ∑ r : Fin 5000, oh (lb V c (rowAt t.val r)) b * w4 V c l (rowAt t.val r) := by
  rw [outsAt8_B V c t h0]
  dsimp only
  rw [(out8_B_eq ..).1, (out8_B_eq ..).2, step3 V c t, step4 V c t]
  exact ⟨rfl, rfl⟩

/-- So after point `n` they hold the terms of the nodes of the blocks 0, …, n: by induction on the point. -/
theorem inv (c : Dev nD) : ∀ (n : ℕ) (h : n < cfg8.N) (b l : Fin 64),
    (outsAt8 V c n h).1 (ix2 b l) = part (lb V c) (w3 V c l) n b ∧ (outsAt8 V c n h).2 (ix2 b l) = part (lb V c) (w4 V c l) n b
  | 0, h, b, l => by
    unfold part
    rw [Finset.sum_range_one, Finset.sum_range_one]
    exact outs_A V c ⟨0, h⟩ (Nat.zero_mod 10) b l
  | n + 1, h, b, l => by
    have hN : cfg8.N = 10 := N_8
    have hB : ¬(⟨n + 1, h⟩ : Fin cfg8.N).val % 10 = 0 := by dsimp only; omega
    obtain ⟨e3, e4⟩ := outs_B V c ⟨n + 1, h⟩ hB b l
    obtain ⟨i3, i4⟩ := inv c n (Nat.lt_of_succ_lt h) b l
    unfold part
    rw [Finset.sum_range_succ _ (n + 1), Finset.sum_range_succ _ (n + 1)]
    exact ⟨e3.trans (congrArg (· + _) i3), e4.trans (congrArg (· + _) i4)⟩

abbrev res3 (c : Dev nD) : Buf (Elt Ideal) ((c : Thread nD τ).loc main_v127_0) :=
  seg (C := 64) (mulCol (V c main_v110) (V c main_v125)) (V c main_v126)
abbrev res4 (c : Dev nD) : Buf (Elt Ideal) ((c : Thread nD τ).loc main_v127_1) :=
  seg (C := 64) (V c main_v110) (V c main_v126)

/-- After the last point the accumulators hold the pooled arrays. -/
theorem last (c : Dev nD) (h9 : 9 < cfg8.N) : (outsAt8 V c 9 h9).1 = res3 V c ∧ (outsAt8 V c 9 h9).2 = res4 V c := by
  constructor <;> funext i <;> obtain ⟨b, l, rfl⟩ : ∃ b l, i = ix2 b l := ⟨i 0, i 1, eq_ix2 i⟩
  · exact (inv V c 9 h9 b l).1.trans (part_last (lb V c) (w3 V c l) b)
  · exact (inv V c 9 h9 b l).2.trans (part_last (lb V c) (w4 V c l) b)

/-- Each output window's one block starts at offset zero on both axes: it is the whole array. -/
theorem off8 : ∀ t : Fin cfg8.N, (∀ a, win8_3.index t a * win8_3.size a = 0) ∧ (∀ a, win8_4.index t a * win8_4.size a = 0) :=
  (by decide +kernel : ∀ t : Fin grid8.N, (∀ a, win8_3.index t a * win8_3.size a = 0) ∧ (∀ a, win8_4.index t a * win8_4.size a = 0))

theorem flushed_eq3 (c : Dev nD) (t : Fin cfg8.N) (hf : (cfg8.win 3).flush t = true) :
    (dat8 V c).flushed 3 t = ((cfg8.win 3).blk t).view.read (Elt Ideal) (res3 V c) := by
  have hN : cfg8.N = 10 := N_8
  obtain rfl : t = t8_9 := Fin.ext (show t.val = 9 by have := (flush8_3 t).mp hf; have := t.isLt; omega)
  show (cfg8.win 3).cut (grid8.coords t8_9) ((dat8 V c).after 3 t8_9) = _
  rw [after8_3, show (outsAt8 V c t8_9.val t8_9.isLt).1 = res3 V c from (last V c t8_9.isLt).1]
  exact Eq.symm (Memref.read_access_unit_zero _ main_v127_0 (funext (off8 t8_9).1) _ _)

theorem flushed_eq4 (c : Dev nD) (t : Fin cfg8.N) (hf : (cfg8.win 4).flush t = true) :
    (dat8 V c).flushed 4 t = ((cfg8.win 4).blk t).view.read (Elt Ideal) (res4 V c) := by
  have hN : cfg8.N = 10 := N_8
  obtain rfl : t = t8_9 := Fin.ext (show t.val = 9 by have := (flush8_4 t).mp hf; have := t.isLt; omega)
  show (cfg8.win 4).cut (grid8.coords t8_9) ((dat8 V c).after 4 t8_9) = _
  rw [after8_4, show (outsAt8 V c t8_9.val t8_9.isLt).2 = res4 V c from (last V c t8_9.isLt).2]
  exact Eq.symm (Memref.read_access_unit_zero _ main_v127_1 (funext (off8 t8_9).2) _ _)

/-- The first output: the attention-weighted node embeddings pooled per graph. -/
theorem final3 (c : Dev nD) :
    (dat8 (F := Ideal) V c).arrAt 3 cfg8.N = seg (C := 64) (mulCol (V c main_v110) (V c main_v125)) (V c main_v126) :=
  (dat8 V c).arrAt_eq_of_cover 3 (res3 V c) (flushed_eq3 V c) fun i =>
    ⟨t8_9, (flush8_3 t8_9).mpr rfl, by
      show i ∈ ((View.whole main_v127_0).slice (win8_3.rect t8_9)).set
      rw [View.set_slice_whole]
      exact View.mem_set_unit_zero (funext (off8 t8_9).1) _ i⟩

/-- The second output: the node embeddings pooled per graph. -/
theorem final4 (c : Dev nD) :
    (dat8 (F := Ideal) V c).arrAt 4 cfg8.N = seg (C := 64) (V c main_v110) (V c main_v126) :=
  (dat8 V c).arrAt_eq_of_cover 4 (res4 V c) (flushed_eq4 V c) fun i =>
    ⟨t8_9, (flush8_4 t8_9).mpr rfl, by
      show i ∈ ((View.whole main_v127_1).slice (win8_4.rect t8_9)).set
      rw [View.set_slice_whole]
      exact View.mem_set_unit_zero (funext (off8 t8_9).2) _ i⟩

end Cert.KernelIdeal.R8

end
-- ==== Proof.Reg9.lean ====
import proofs.«429700_j86320252715258_2_alg».proof.Proof.Gen.KernelIdeal.Frame
import proofs.«429700_j86320252715258_2_alg».proof.Proof.Spec
import proofs.«429700_j86320252715258_2_alg».proof.Proof.LibPlainDot
import Idealize.ShloMosaic.Lib.ValueLayout
import Idealize.ShloMosaic.PureOps.Ideal.Laws

noncomputable section

namespace Cert.KernelIdeal.R9

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- A product into the zero accumulator plus the bias row is the dense map: the format changes are the identity on extended reals. -/
theorem layer_eq {m k n : ℕ} (D : DotDims ⟨2, ![m, k]⟩ ⟨2, ![k, n]⟩ ⟨2, ![m, n]⟩) (hD : D = DotDims.plain m k n)
    {A' A : FVec Ideal ⟨2, ![m, k]⟩ .f32} {B : FVec Ideal ⟨2, ![k, n]⟩ .f32} {bias : FVec Ideal ⟨2, ![1, n]⟩ .f32}
    {hA : FTy.bf16.bits < FTy.f32.bits} {hB : FTy.bf16.bits < FTy.f32.bits}
    {hc : (⟨2, ![1, n]⟩ : Shape).ShapeCasts ⟨2, ![1, n]⟩} {hb : (⟨2, ![1, n]⟩ : Shape).Broadcasts ⟨2, ![m, n]⟩} (hA' : A' = A) :
    addf (matmul D none (truncf .bf16 A' hA) (truncf .bf16 B hB) (constant (F := Ideal) ⟨2, ![m, n]⟩ .f32 0x00000000#32))
        (broadcastTo ⟨2, ![m, n]⟩ (shapeCast ⟨2, ![1, n]⟩ bias hc) hb)
      = lin A B bias := by
  subst hD hA'
  funext i
  obtain ⟨a, b, rfl⟩ : ∃ (a : Fin m) (b : Fin n), i = ix2 a b := ⟨i 0, i 1, eq_ix2 i⟩
  refine (addf_apply _ _ _).trans ?_
  refine congrArg₂ (· + ·) ?_ ?_
  · exact Cert.Lib.PlainDot.matmul_plain_zero_apply none (truncf .bf16 A' hA) (truncf .bf16 B hB) a b
  · rw [shapeCast_self]
    exact broadcastTo_1b_ab_apply bias hb a b

/-- The maximum with the zero splat is the positive part. -/
theorem relu_eq {m n : ℕ} (Y : FVec Ideal ⟨2, ![m, n]⟩ .f32) :
    maximumf Y (broadcast ⟨2, ![m, n]⟩ (Scalar.ofBits (F := Ideal) .f32 0x00000000#32)) = relu Y := by
  funext i
  show max (Y i) (Ideal.ofBits .f32 0x00000000#32) = max (Y i) 0
  rw [Ideal.ofBits_zero_f32]

theorem pay2_eq (x0 : Vec Ideal S64x64 .f32) (x2 : Vec Ideal S64x128 .f32) (x3 : Vec Ideal S1x128 .f32)
    (x4 : Vec Ideal S128x64 .f32) (x5 : Vec Ideal S1x64 .f32) (x6 : Vec Ideal S64x6 .f32) (x7 : Vec Ideal S1x6 .f32) :
    k9_pay2 x0 x2 x3 x4 x5 x6 x7 = predHead x0 x2 x3 x4 x5 x6 x7 := by
  unfold k9_pay2 predHead
  exact layer_eq dot_S64x64_S64x6_S64x6_1_0_0_1_n_n rfl ((relu_eq _).trans (congrArg relu
    (layer_eq dot_S64x128_S128x64_S64x64_1_0_0_1_n_n rfl ((relu_eq _).trans (congrArg relu
      (layer_eq dot_S64x64_S64x128_S64x128_1_0_0_1_n_n rfl (shapeCast_self _ _)))))))

theorem pay1_eq (x1 : Vec Ideal S64x64 .f32) (x8 : Vec Ideal S64x64 .f32) (x9 : Vec Ideal S1x64 .f32)
    (x10 : Vec Ideal S64x1 .f32) (x11 : Vec Ideal S1x1 .f32) :
    k9_pay1 (k9_pay3 x1) x8 x9 x10 x11 = noiseHead x1 x8 x9 x10 x11 := by
  unfold k9_pay1 k9_pay3 noiseHead
  exact congrArg (mapA Ideal.logistic) (layer_eq dot_S64x64_S64x1_S64x1_1_0_0_1_n_n rfl ((relu_eq _).trans (congrArg relu
    (layer_eq dot_S64x64_S64x64_S64x64_1_0_0_1_n_n rfl (shapeCast_self _ _)))))

variable (V : (c : Dev nD) → (b : Ref sig .tc) → Buf (Elt Ideal) ((c : Thread nD τ).loc b))

theorem hz : (![0, 0] : Fin 2 → Nat) = fun _ => 0 := funext fun a => by fin_cases a <;> rfl

/-- The grid has one point, and there every window's block starts at offset zero on every axis. -/
theorem off9 : ∀ (w : Fin cfg9.W) (t : Fin cfg9.N) (a : Fin (cfg9.win w).shape.rank),
    (cfg9.win w).index t a * (cfg9.win w).size a = 0 :=
  (by decide +kernel : ∀ (w : Fin 14) (t : Fin grid9.N) (a : Fin (win9 w).shape.rank),
    (win9 w).index t a * (win9 w).size a = 0)

/-- So every input window's block is its whole array. -/
theorem blk9 (c : Dev nD) (t : Fin cfg9.N) :
    iblk9 V c 0 t = V c main_v127_0 ∧ iblk9 V c 1 t = V c main_v136 ∧ iblk9 V c 2 t = V c main_arg26
    ∧ iblk9 V c 3 t = V c main_v137 ∧ iblk9 V c 4 t = V c main_arg28 ∧ iblk9 V c 5 t = V c main_v138
    ∧ iblk9 V c 6 t = V c main_arg30 ∧ iblk9 V c 7 t = V c main_v139 ∧ iblk9 V c 8 t = V c main_arg32
    ∧ iblk9 V c 9 t = V c main_v140 ∧ iblk9 V c 10 t = V c main_arg34 ∧ iblk9 V c 11 t = V c main_v141 :=
  ⟨Memref.read_access_unit_zero _ main_v127_0 (funext (off9 0 t)) _ _,
    Memref.read_access_unit_zero _ main_v136 (funext (off9 1 t)) _ _,
    Memref.read_access_unit_zero _ main_arg26 (funext (off9 2 t)) _ _,
    Memref.read_access_unit_zero _ main_v137 (funext (off9 3 t)) _ _,
    Memref.read_access_unit_zero _ main_arg28 (funext (off9 4 t)) _ _,
    Memref.read_access_unit_zero _ main_v138 (funext (off9 5 t)) _ _,
    Memref.read_access_unit_zero _ main_arg30 (funext (off9 6 t)) _ _,
    Memref.read_access_unit_zero _ main_v139 (funext (off9 7 t)) _ _,
    Memref.read_access_unit_zero _ main_arg32 (funext (off9 8 t)) _ _,
    Memref.read_access_unit_zero _ main_v140 (funext (off9 9 t)) _ _,
    Memref.read_access_unit_zero _ main_arg34 (funext (off9 10 t)) _ _,
    Memref.read_access_unit_zero _ main_v141 (funext (off9 11 t)) _ _⟩

theorem flushed12_eq (c : Dev nD) (t : Fin cfg9.N) :
    (dat9 (F := Ideal) V c).flushed 12 t = ((cfg9.win 12).blk t).view.read (Elt Ideal)
      (predHead (V c main_v127_0) (V c main_arg26) (V c main_v137) (V c main_arg28) (V c main_v138) (V c main_arg30) (V c main_v139)) := by
  obtain ⟨e0, e1, e2, e3, e4, e5, e6, e7, e8, e9, e10, e11⟩ := blk9 V c t
  show (cfg9.win 12).cut (grid9.coords t) ((dat9 V c).after 12 t) = _
  rw [after9_12]
  unfold out9_12
  rw [View.canon_unit_zero hz]
  simp only [View.ld_unit_zero (S := ⟨2, _⟩) hz]
  refine (pay2_eq _ _ _ _ _ _ _).trans ?_
  rw [e0, e2, e3, e4, e5, e6, e7]
  exact Eq.symm (Memref.read_access_unit_zero _ main_v142_0 (funext (off9 12 t)) _ _)

theorem cover12 (i : S64x6.Idx) : ∃ t : Fin cfg9.N, (cfg9.win 12).flush t = true ∧ i ∈ ((cfg9.win 12).blk t).view.set :=
  ⟨t9_0, flush9_12 t9_0, by
    show i ∈ ((View.whole main_v142_0).slice (win9_12.rect t9_0)).set
    rw [View.set_slice_whole]
    exact View.mem_set_unit_zero (funext (off9 12 t9_0)) _ i⟩

/-- The one block written back is the whole first output: the class scores. -/
theorem final12 (c : Dev nD) :
    (dat9 (F := Ideal) V c).arrAt 12 cfg9.N
      = predHead (V c main_v127_0) (V c main_arg26) (V c main_v137) (V c main_arg28) (V c main_v138) (V c main_arg30) (V c main_v139) :=
  (dat9 (F := Ideal) V c).arrAt_eq_of_cover 12 _ (fun t _ => flushed12_eq V c t) cover12

theorem flushed13_eq (c : Dev nD) (t : Fin cfg9.N) :
    (dat9 (F := Ideal) V c).flushed 13 t = ((cfg9.win 13).blk t).view.read (Elt Ideal)
      (noiseHead (V c main_v136) (V c main_arg32) (V c main_v140) (V c main_arg34) (V c main_v141)) := by
  obtain ⟨e0, e1, e2, e3, e4, e5, e6, e7, e8, e9, e10, e11⟩ := blk9 V c t
  show (cfg9.win 13).cut (grid9.coords t) ((dat9 V c).after 13 t) = _
  rw [after9_13]
  unfold out9_13
  rw [View.canon_unit_zero hz]
  simp only [View.ld_unit_zero (S := ⟨2, _⟩) hz]
  refine (pay1_eq _ _ _ _ _).trans ?_
  rw [e1, e8, e9, e10, e11]
  exact Eq.symm (Memref.read_access_unit_zero _ main_v142_1 (funext (off9 13 t)) _ _)

theorem cover13 (i : S64x1.Idx) : ∃ t : Fin cfg9.N, (cfg9.win 13).flush t = true ∧ i ∈ ((cfg9.win 13).blk t).view.set :=
  ⟨t9_0, flush9_13 t9_0, by
    show i ∈ ((View.whole main_v142_1).slice (win9_13.rect t9_0)).set
    rw [View.set_slice_whole]
    exact View.mem_set_unit_zero (funext (off9 13 t9_0)) _ i⟩

/-- The one block written back is the whole second output: the noise probability. -/
theorem final13 (c : Dev nD) :
    (dat9 (F := Ideal) V c).arrAt 13 cfg9.N
      = noiseHead (V c main_v136) (V c main_arg32) (V c main_v140) (V c main_arg34) (V c main_v141) :=
  (dat9 (F := Ideal) V c).arrAt_eq_of_cover 13 _ (fun t _ => flushed13_eq V c t) cover13

end Cert.KernelIdeal.R9

end
-- ==== Proof.KChainC.lean ====
import proofs.«429700_j86320252715258_2_alg».proof.Proof.KChainB
import proofs.«429700_j86320252715258_2_alg».proof.Proof.Reg7
import proofs.«429700_j86320252715258_2_alg».proof.Proof.Reg8
import proofs.«429700_j86320252715258_2_alg».proof.Proof.Reg9

noncomputable section

namespace Cert.KernelIdeal.KChain

open Cert.KernelIdeal Cert.KernelIdeal.Gen Cert.Spec Cert.KernelIdeal.KLevels
open Idealize.ShloMosaic Idealize.ShloMosaic.TcCoe Idealize.ShloMosaic.ValueIdx Idealize.SL.Sem

section Host
variable (W : Valuation τ sig (Elt Ideal))

theorem g112 : StableHlo.after (hostOps7 (F := Ideal)) W main_v112 = shapeCast _ (W main_arg23) shapeCasts_S128_S1x128 := by
  after_results_simp <;> rfl
theorem g113 : StableHlo.after (hostOps7 (F := Ideal)) W main_v113 = shapeCast _ (W main_arg25) shapeCasts_S1_S1x1 := by
  after_results_simp <;> rfl
theorem g125 : StableHlo.after (hostOps8 (F := Ideal)) W main_v125 = HChain.softmax (F := Ideal) (W main_v114) := by
  after_results_simp <;> rfl
theorem g126 : StableHlo.after (hostOps8 (F := Ideal)) W main_v126 = shapeCast _ (W main_arg3) shapeCasts_S50000_S50000x1 := by
  after_results_simp <;> rfl
theorem g136 : StableHlo.after (hostOps9 (F := Ideal)) W main_v136
    = HChain.zmean (F := Ideal) (W main_v127_1) (W main_arg3) := by after_results_simp <;> rfl
theorem g137 : StableHlo.after (hostOps9 (F := Ideal)) W main_v137 = shapeCast _ (W main_arg27) shapeCasts_S128_S1x128 := by
  after_results_simp <;> rfl
theorem g138 : StableHlo.after (hostOps9 (F := Ideal)) W main_v138 = shapeCast _ (W main_arg29) shapeCasts_S64_S1x64 := by
  after_results_simp <;> rfl
theorem g139 : StableHlo.after (hostOps9 (F := Ideal)) W main_v139 = shapeCast _ (W main_arg31) shapeCasts_S6_S1x6 := by
  after_results_simp <;> rfl
theorem g140 : StableHlo.after (hostOps9 (F := Ideal)) W main_v140 = shapeCast _ (W main_arg33) shapeCasts_S64_S1x64 := by
  after_results_simp <;> rfl
theorem g141 : StableHlo.after (hostOps9 (F := Ideal)) W main_v141 = shapeCast _ (W main_arg35) shapeCasts_S1_S1x1 := by
  after_results_simp <;> rfl

end Host

variable (m : (ℓ : Loc nD τ sig) → Buf (Elt Ideal) ℓ) (ρ : Dev nD → PrngReg)

theorem w15_v112 (c : Dev nD) : Vn m ρ 15 c main_v112 = rowOf (kin m c).ba1 :=
  (g112 (W14 m ρ c)).trans (shapeCast_rowOf shapeCasts_S128_S1x128 (argAt m ρ 14 c main_arg23 (by decide)))
theorem w15_v113 (c : Dev nD) : Vn m ρ 15 c main_v113 = rowOf (kin m c).ba2 :=
  (g113 (W14 m ρ c)).trans (shapeCast_rowOf shapeCasts_S1_S1x1 (argAt m ρ 14 c main_arg25 (by decide)))

theorem k_attn (c : Dev nD) :
    Vn m ρ 16 c main_v114 = attn (kin m c).mu (kin m c).Wa1 (rowOf (kin m c).ba1) (kin m c).Wa2 (rowOf (kin m c).ba2) :=
  ((hF7 m ρ c 5).symm.trans (R7.final (Vn m ρ 15) c)).trans (by
    rw [e_mu m ρ 15 (by decide), argAt m ρ 15 c main_arg22 (by decide), w15_v112, argAt m ρ 15 c main_arg24 (by decide),
      w15_v113]; rfl)

theorem w17_v125 (c : Dev nD) : Vn m ρ 17 c main_v125 = (kin m c).att :=
  (g125 (W16 m ρ c)).trans (congrArg (HChain.softmax (F := Ideal)) (k_attn m ρ c))
theorem w17_v126 (c : Dev nD) : Vn m ρ 17 c main_v126 = colI (kin m c).batch :=
  (g126 (W16 m ρ c)).trans ((shapeCast_col _ shapeCasts_S50000_S50000x1).trans
    (congrArg colI (argAt m ρ 16 c main_arg3 (by decide))))

theorem k_gpool (k : Nat) (hk : 18 ≤ k) (c : Dev nD) : Vn m ρ k c main_v127_0 = (kin m c).gpool :=
  (keep m ρ 18 k hk c main_v127_0 (by decide)).trans (((hF8 m ρ c 3).symm.trans (R8.final3 (Vn m ρ 17) c)).trans (by
    rw [e_mu m ρ 17 (by decide), w17_v125, w17_v126]; rfl))
theorem k_seg (c : Dev nD) : Vn m ρ 18 c main_v127_1 = seg (kin m c).mu (colI (kin m c).batch) :=
  ((hF8 m ρ c 4).symm.trans (R8.final4 (Vn m ρ 17) c)).trans (by rw [e_mu m ρ 17 (by decide), w17_v126])

theorem w19_v136 (c : Dev nD) : Vn m ρ 19 c main_v136 = (kin m c).zmean :=
  (g136 (W18 m ρ c)).trans (congrArg₂ (HChain.zmean (F := Ideal)) (k_seg m ρ c) (argAt m ρ 18 c main_arg3 (by decide)))
theorem w19_v137 (c : Dev nD) : Vn m ρ 19 c main_v137 = rowOf (kin m c).bc1 :=
  (g137 (W18 m ρ c)).trans (shapeCast_rowOf shapeCasts_S128_S1x128 (argAt m ρ 18 c main_arg27 (by decide)))
theorem w19_v138 (c : Dev nD) : Vn m ρ 19 c main_v138 = rowOf (kin m c).bc2 :=
  (g138 (W18 m ρ c)).trans (shapeCast_rowOf shapeCasts_S64_S1x64 (argAt m ρ 18 c main_arg29 (by decide)))
theorem w19_v139 (c : Dev nD) : Vn m ρ 19 c main_v139 = rowOf (kin m c).bc3 :=
  (g139 (W18 m ρ c)).trans (shapeCast_rowOf shapeCasts_S6_S1x6 (argAt m ρ 18 c main_arg31 (by decide)))
theorem w19_v140 (c : Dev nD) : Vn m ρ 19 c main_v140 = rowOf (kin m c).bn1 :=
  (g140 (W18 m ρ c)).trans (shapeCast_rowOf shapeCasts_S64_S1x64 (argAt m ρ 18 c main_arg33 (by decide)))
theorem w19_v141 (c : Dev nD) : Vn m ρ 19 c main_v141 = rowOf (kin m c).bn2 :=
  (g141 (W18 m ρ c)).trans (shapeCast_rowOf shapeCasts_S1_S1x1 (argAt m ρ 18 c main_arg35 (by decide)))

theorem k_pred (c : Dev nD) : W20 (F := Ideal) m ρ c (Proc.devRef .tc main_v142_0) = (kin m c).pred :=
  ((hF9 m ρ c 12).symm.trans (R9.final12 (Vn m ρ 19) c)).trans (by
    rw [k_gpool m ρ 19 (by decide), argAt m ρ 19 c main_arg26 (by decide), w19_v137, argAt m ρ 19 c main_arg28 (by decide),
      w19_v138, argAt m ρ 19 c main_arg30 (by decide), w19_v139]; rfl)

theorem k_noise (c : Dev nD) : W20 (F := Ideal) m ρ c (Proc.devRef .tc main_v142_1) = (kin m c).noise :=
  ((hF9 m ρ c 13).symm.trans (R9.final13 (Vn m ρ 19) c)).trans (by
    rw [w19_v136, argAt m ρ 19 c main_arg32 (by decide), w19_v140, argAt m ρ 19 c main_arg34 (by decide), w19_v141]; rfl)

end Cert.KernelIdeal.KChain

end
-- ==== Proof.RChainA.lean ====
import proofs.«429700_j86320252715258_2_alg».proof.Proof.RefRead
import proofs.«429700_j86320252715258_2_alg».proof.Proof.Gen.KernelIdeal
import proofs.«429700_j86320252715258_2_alg».proof.Proof.SpecAll
import proofs.«429700_j86320252715258_2_alg».proof.Proof.LibRowGather
import proofs.«429700_j86320252715258_2_alg».proof.Proof.LibSegmentSumHost
import Idealize.ShloMosaic.Lib.StackMember
import Idealize.ShloMosaic.Lib.IdealHost
import Idealize.ShloMosaic.Lib.StableHlo.Predicate

noncomputable section

namespace Cert.ReferenceIdeal.RChain

open Cert.ReferenceIdeal Cert.ReferenceIdeal.Gen Cert.ReferenceIdeal.Read Cert.Spec
open Idealize.ShloMosaic Idealize.ShloMosaic.TcCoe Idealize.ShloMosaic.ValueIdx Idealize.SL.Sem

def rin (m : (ℓ : Loc nD τ sig) → Buf (Elt Ideal) ℓ) (c : Dev nD) : Cert.Spec.In where
  x := m ((c.tc : Thread nD τ).loc main_arg0)
  ei := m ((c.tc : Thread nD τ).loc main_arg1)
  ew := m ((c.tc : Thread nD τ).loc main_arg2)
  batch := m ((c.tc : Thread nD τ).loc main_arg3)
  W_in := m ((c.tc : Thread nD τ).loc main_arg4)
  b_in := m ((c.tc : Thread nD τ).loc main_arg5)
  W1 := m ((c.tc : Thread nD τ).loc main_arg6)
  b1 := m ((c.tc : Thread nD τ).loc main_arg7)
  W2 := m ((c.tc : Thread nD τ).loc main_arg8)
  b2 := m ((c.tc : Thread nD τ).loc main_arg9)
  Wmu := m ((c.tc : Thread nD τ).loc main_arg10)
  bmu := m ((c.tc : Thread nD τ).loc main_arg11)
  Wlv := m ((c.tc : Thread nD τ).loc main_arg12)
  blv := m ((c.tc : Thread nD τ).loc main_arg13)
  g1 := m ((c.tc : Thread nD τ).loc main_arg14)
  be1 := m ((c.tc : Thread nD τ).loc main_arg15)
  rm1 := m ((c.tc : Thread nD τ).loc main_arg16)
  rv1 := m ((c.tc : Thread nD τ).loc main_arg17)
  g2 := m ((c.tc : Thread nD τ).loc main_arg18)
  be2 := m ((c.tc : Thread nD τ).loc main_arg19)
  rm2 := m ((c.tc : Thread nD τ).loc main_arg20)
  rv2 := m ((c.tc : Thread nD τ).loc main_arg21)
  Wa1 := m ((c.tc : Thread nD τ).loc main_arg22)
  ba1 := m ((c.tc : Thread nD τ).loc main_arg23)
  Wa2 := m ((c.tc : Thread nD τ).loc main_arg24)
  ba2 := m ((c.tc : Thread nD τ).loc main_arg25)
  Wc1 := m ((c.tc : Thread nD τ).loc main_arg26)
  bc1 := m ((c.tc : Thread nD τ).loc main_arg27)
  Wc2 := m ((c.tc : Thread nD τ).loc main_arg28)
  bc2 := m ((c.tc : Thread nD τ).loc main_arg29)
  Wc3 := m ((c.tc : Thread nD τ).loc main_arg30)
  bc3 := m ((c.tc : Thread nD τ).loc main_arg31)
  Wn1 := m ((c.tc : Thread nD τ).loc main_arg32)
  bn1 := m ((c.tc : Thread nD τ).loc main_arg33)
  Wn2 := m ((c.tc : Thread nD τ).loc main_arg34)
  bn2 := m ((c.tc : Thread nD τ).loc main_arg35)

section Ops

theorem scalarAll_apply {α : Type} {t : Shape} (hz : (⟨0, ![]⟩ : Shape).BroadcastsInDim t ![])
    (x : (⟨0, ![]⟩ : Shape).Idx → α) (j : t.Idx) : broadcastInDim t ![] hz x j = x ix0 :=
  broadcastInDim_apply _ hz x j ix0 (fun a => a.elim0)

-- A vector laid out as a row and copied to every row of an array: entry (r, c) is the vector's entry c.
theorem rowAll_apply {α : Type} {n p : Nat} (hb1 : (⟨1, ![p]⟩ : Shape).BroadcastsInDim ⟨2, ![1, p]⟩ ![1])
    (hb2 : (⟨2, ![1, p]⟩ : Shape).BroadcastsInDim ⟨2, ![n, p]⟩ ![0, 1]) (b : (⟨1, ![p]⟩ : Shape).Idx → α)
    (r : Fin n) (c : Fin p) :
    broadcastInDim ⟨2, ![n, p]⟩ ![0, 1] hb2 (broadcastInDim ⟨2, ![1, p]⟩ ![1] hb1 b) (ix2 r c) = b (ix1 c) :=
  (StableHlo.Predicate.bcast_cols hb1 hb2 b r c).trans (congrArg b (Shape.Idx.eq_ofFin (ix1 c)).symm)

-- A vector laid out as a column and copied to every column of an array: entry (r, c) is the vector's entry r.
theorem colAll_apply {α : Type} {n C : Nat} (hc1 : (⟨1, ![n]⟩ : Shape).BroadcastsInDim ⟨2, ![n, 1]⟩ ![0])
    (hc2 : (⟨2, ![n, 1]⟩ : Shape).BroadcastsInDim ⟨2, ![n, C]⟩ ![0, 1]) (v : (⟨1, ![n]⟩ : Shape).Idx → α)
    (r : Fin n) (c : Fin C) :
    broadcastInDim ⟨2, ![n, C]⟩ ![0, 1] hc2 (broadcastInDim ⟨2, ![n, 1]⟩ ![0] hc1 v) (ix2 r c) = v (ix1 r) :=
  (StableHlo.Predicate.bcast_rows hc1 hc2 v r c).trans (congrArg v (Shape.Idx.eq_ofFin (ix1 r)).symm)

theorem ixP_eq {n : Nat} (r : Fin n) : StableHlo.Predicate.ixP r = ix2 r 0 :=
  funext fun a => by match a with | ⟨0, _⟩ => rfl | ⟨1, _⟩ => rfl

-- A vector laid out as a column: entry (r, 0) is the vector's entry r.
theorem col1_apply {α : Type} {n : Nat} (hc : (⟨1, ![n]⟩ : Shape).BroadcastsInDim ⟨2, ![n, 1]⟩ ![0])
    (v : (⟨1, ![n]⟩ : Shape).Idx → α) (r : Fin n) :
    broadcastInDim ⟨2, ![n, 1]⟩ ![0] hc v (ix2 r 0) = v (ix1 r) := by
  rw [← ixP_eq]
  exact (StableHlo.Predicate.bcast_col1 hc v r).trans (congrArg v (Shape.Idx.eq_ofFin (ix1 r)).symm)

-- A column copied to every column of an array: entry (r, c) is the column's entry (r, 0).
theorem ofCol_apply {α : Type} {n C : Nat} (hc : (⟨2, ![n, 1]⟩ : Shape).BroadcastsInDim ⟨2, ![n, C]⟩ ![0, 1])
    (a : (⟨2, ![n, 1]⟩ : Shape).Idx → α) (r : Fin n) (c : Fin C) :
    broadcastInDim ⟨2, ![n, C]⟩ ![0, 1] hc a (ix2 r c) = a (ix2 r 0) := by
  rw [← ixP_eq]
  exact StableHlo.Predicate.bcast_of_col hc a r c

theorem lin_op {n k p : Nat} (D : DotDims ⟨2, ![n, k]⟩ ⟨2, ![k, p]⟩ ⟨2, ![n, p]⟩) (hD : D = DotDims.plain n k p)
    (hb1 : (⟨1, ![p]⟩ : Shape).BroadcastsInDim ⟨2, ![1, p]⟩ ![1])
    (hb2 : (⟨2, ![1, p]⟩ : Shape).BroadcastsInDim ⟨2, ![n, p]⟩ ![0, 1])
    (h : FVec Ideal ⟨2, ![n, k]⟩ .f32) (W : FVec Ideal ⟨2, ![k, p]⟩ .f32) (b : FVec Ideal ⟨1, ![p]⟩ .f32) :
    addf (Host.dotGeneral D none h W)
        (broadcastInDim ⟨2, ![n, p]⟩ ![0, 1] hb2 (broadcastInDim ⟨2, ![1, p]⟩ ![1] hb1 b))
      = lin h W (rowOf b) := by
  subst hD
  funext i
  obtain ⟨r, c, rfl⟩ : ∃ (r : Fin n) (c : Fin p), i = ix2 r c := ⟨i 0, i 1, eq_ix2 i⟩
  rw [addf_apply, StackMember.dotGeneral_plain_apply, rowAll_apply]
  rfl

theorem agg_op {C : Nat}
    (wg : GatherDims.WF ⟨2, ![50000, C]⟩ ⟨2, ![1600000, 1]⟩ ⟨2, ![1600000, C]⟩ [1] [0] [] [0] [] 1 ![1, C])
    (ws : ScatterDims.WF ⟨2, ![50000, C]⟩ ⟨2, ![1600000, 1]⟩ ⟨2, ![1600000, C]⟩ [1] [0] [0] 1)
    (hz : (⟨0, ![]⟩ : Shape).BroadcastsInDim ⟨2, ![50000, C]⟩ ![])
    (hn1 : (⟨1, ![1600000]⟩ : Shape).BroadcastsInDim ⟨2, ![1600000, 1]⟩ ![0])
    (hn2 : (⟨2, ![1600000, 1]⟩ : Shape).BroadcastsInDim ⟨2, ![1600000, C]⟩ ![0, 1])
    (h : FVec Ideal ⟨2, ![50000, C]⟩ .f32) (s d : IVec ⟨2, ![1600000, 1]⟩ 32) (nw : FVec Ideal ⟨1, ![1600000]⟩ .f32) :
    Host.scatterAdd (SegmentSum.dimsCols 50000 C 1600000 ws)
        (broadcastInDim ⟨2, ![50000, C]⟩ ![] hz (constant (F := Ideal) ⟨0, ![]⟩ .f32 0x00000000#32)) d
        (mulf (Host.gather (Cert.Lib.RowGather.rowDims 50000 C 1600000 wg) h s)
          (broadcastInDim ⟨2, ![1600000, C]⟩ ![0, 1] hn2 (broadcastInDim ⟨2, ![1600000, 1]⟩ ![0] hn1 nw)))
      = Spec.agg h s d nw := by
  funext i
  obtain ⟨p, c, rfl⟩ : ∃ (p : Fin 50000) (c : Fin C), i = ix2 p c := ⟨i 0, i 1, eq_ix2 i⟩
  rw [SegmentSum.scatterAdd_cols_host, scalarAll_apply, constant_apply, Ideal.ofBits_zero_f32, zero_add]
  show _ = ∑ e ∈ Finset.univ.filter (fun e : Fin 1600000 => (d (ix2 e 0)).toInt = (p.val : Int)),
      h (ix2 ⟨min (s (ix2 e 0)).toInt.toNat (50000 - 1), by omega⟩ c) * nw (ix1 e)
  refine Finset.sum_congr rfl fun e _ => ?_
  rw [mulf_apply, Cert.Lib.RowGather.gather_rows_apply (N := 50000) (by omega), colAll_apply]

theorem comb_op {n C : Nat} (hc1 : (⟨1, ![n]⟩ : Shape).BroadcastsInDim ⟨2, ![n, 1]⟩ ![0])
    (hc2 : (⟨2, ![n, 1]⟩ : Shape).BroadcastsInDim ⟨2, ![n, C]⟩ ![0, 1])
    (a h : FVec Ideal ⟨2, ![n, C]⟩ .f32) (d : FVec Ideal ⟨1, ![n]⟩ .f32) :
    addf a (mulf h (broadcastInDim ⟨2, ![n, C]⟩ ![0, 1] hc2 (broadcastInDim ⟨2, ![n, 1]⟩ ![0] hc1 (mulf d d))))
      = comb a h (colOf d) := by
  funext i
  obtain ⟨r, c, rfl⟩ : ∃ (r : Fin n) (c : Fin C), i = ix2 r c := ⟨i 0, i 1, eq_ix2 i⟩
  rw [addf_apply, mulf_apply, colAll_apply, mulf_apply]
  rfl

theorem bn_op {n C : Nat} (hb1 : (⟨1, ![C]⟩ : Shape).BroadcastsInDim ⟨2, ![1, C]⟩ ![1])
    (hb2 : (⟨2, ![1, C]⟩ : Shape).BroadcastsInDim ⟨2, ![n, C]⟩ ![0, 1])
    (he : (⟨0, ![]⟩ : Shape).BroadcastsInDim ⟨1, ![C]⟩ ![])
    (hz : (⟨0, ![]⟩ : Shape).BroadcastsInDim ⟨2, ![n, C]⟩ ![])
    (y : FVec Ideal ⟨2, ![n, C]⟩ .f32) (g be rm rv : FVec Ideal ⟨1, ![C]⟩ .f32) :
    maximumf
        (addf
          (mulf (subf y (broadcastInDim ⟨2, ![n, C]⟩ ![0, 1] hb2 (broadcastInDim ⟨2, ![1, C]⟩ ![1] hb1 rm)))
            (broadcastInDim ⟨2, ![n, C]⟩ ![0, 1] hb2 (broadcastInDim ⟨2, ![1, C]⟩ ![1] hb1
              (mulf g (Host.rsqrt (addf rv
                (broadcastInDim ⟨1, ![C]⟩ ![] he (constant (F := Ideal) ⟨0, ![]⟩ .f32 0x3727C5AC#32))))))))
          (broadcastInDim ⟨2, ![n, C]⟩ ![0, 1] hb2 (broadcastInDim ⟨2, ![1, C]⟩ ![1] hb1 be)))
        (broadcastInDim ⟨2, ![n, C]⟩ ![] hz (constant (F := Ideal) ⟨0, ![]⟩ .f32 0x00000000#32))
      = bn y (rowOf g) (rowOf be) (rowOf rm) (rowOf rv) := by
  funext i
  obtain ⟨r, c, rfl⟩ : ∃ (r : Fin n) (c : Fin C), i = ix2 r c := ⟨i 0, i 1, eq_ix2 i⟩
  rw [maximumf_apply, addf_apply, mulf_apply, subf_apply, rowAll_apply, rowAll_apply, rowAll_apply, mulf_apply,
    scalarAll_apply, constant_apply, Ideal.ofBits_zero_f32]
  show max ((y (ix2 r c) - rm (ix1 c)) * (g (ix1 c) * Ideal.rsqrt (rv (ix1 c)
      + broadcastInDim ⟨1, ![C]⟩ ![] he (constant (F := Ideal) ⟨0, ![]⟩ .f32 0x3727C5AC#32) (ix1 c))) + be (ix1 c)) 0 = _
  rw [scalarAll_apply, constant_apply]
  rfl

-- The positive part: the larger of an entry and zero.
theorem relu_op {a b : Nat} (hz : (⟨0, ![]⟩ : Shape).BroadcastsInDim ⟨2, ![a, b]⟩ ![]) (y : FVec Ideal ⟨2, ![a, b]⟩ .f32) :
    maximumf y (broadcastInDim ⟨2, ![a, b]⟩ ![] hz (constant (F := Ideal) ⟨0, ![]⟩ .f32 0x00000000#32)) = relu y := by
  funext i
  rw [maximumf_apply, scalarAll_apply, constant_apply, Ideal.ofBits_zero_f32]
  rfl

-- The hyperbolic tangent of every entry.
theorem tanh_op {a b : Nat} (y : FVec Ideal ⟨2, ![a, b]⟩ .f32) : Host.tanh y = mapA Ideal.tanh y := rfl

-- Every row scaled by its entry of a column.
theorem mulCol_op {n C : Nat} (hc : (⟨2, ![n, 1]⟩ : Shape).BroadcastsInDim ⟨2, ![n, C]⟩ ![0, 1])
    (z : FVec Ideal ⟨2, ![n, C]⟩ .f32) (a : FVec Ideal ⟨2, ![n, 1]⟩ .f32) :
    mulf z (broadcastInDim ⟨2, ![n, C]⟩ ![0, 1] hc a) = mulCol z a := by
  funext i
  obtain ⟨r, c, rfl⟩ : ∃ (r : Fin n) (c : Fin C), i = ix2 r c := ⟨i 0, i 1, eq_ix2 i⟩
  rw [mulf_apply, ofCol_apply]
  rfl

-- One over one plus the exponential of the negated entry is the logistic function of the entry.
theorem logistic_op {a b : Nat} (hz : (⟨0, ![]⟩ : Shape).BroadcastsInDim ⟨2, ![a, b]⟩ ![]) (y : FVec Ideal ⟨2, ![a, b]⟩ .f32) :
    Host.divf (broadcastInDim ⟨2, ![a, b]⟩ ![] hz (constant (F := Ideal) ⟨0, ![]⟩ .f32 0x3F800000#32))
        (addf (broadcastInDim ⟨2, ![a, b]⟩ ![] hz (constant (F := Ideal) ⟨0, ![]⟩ .f32 0x3F800000#32))
          (Host.exp (Host.negf y)))
      = mapA Ideal.logistic y := by
  funext i
  show Ideal.div (broadcastInDim ⟨2, ![a, b]⟩ ![] hz (constant (F := Ideal) ⟨0, ![]⟩ .f32 0x3F800000#32) i)
      (broadcastInDim ⟨2, ![a, b]⟩ ![] hz (constant (F := Ideal) ⟨0, ![]⟩ .f32 0x3F800000#32) i + Ideal.exp (-(y i))) = _
  rw [scalarAll_apply, constant_apply, Ideal.ofBits_one_f32]
  rfl

-- The rows added into the zero array at the rows their labels name: the sum over the nodes of each graph.
theorem seg_op {C : Nat} (ws : ScatterDims.WF ⟨2, ![64, C]⟩ ⟨2, ![50000, 1]⟩ ⟨2, ![50000, C]⟩ [1] [0] [0] 1)
    (hz : (⟨0, ![]⟩ : Shape).BroadcastsInDim ⟨2, ![64, C]⟩ ![])
    (hc : (⟨1, ![50000]⟩ : Shape).BroadcastsInDim ⟨2, ![50000, 1]⟩ ![0])
    (w : FVec Ideal ⟨2, ![50000, C]⟩ .f32) (b : IVec ⟨1, ![50000]⟩ 32) :
    Host.scatterAdd (SegmentSum.dimsCols 64 C 50000 ws)
        (broadcastInDim ⟨2, ![64, C]⟩ ![] hz (constant (F := Ideal) ⟨0, ![]⟩ .f32 0x00000000#32))
        (broadcastInDim ⟨2, ![50000, 1]⟩ ![0] hc b) w
      = seg w (colI b) := by
  funext i
  obtain ⟨p, c, rfl⟩ : ∃ (p : Fin 64) (c : Fin C), i = ix2 p c := ⟨i 0, i 1, eq_ix2 i⟩
  rw [SegmentSum.scatterAdd_cols_host, scalarAll_apply, constant_apply, Ideal.ofBits_zero_f32, zero_add]
  exact Finset.sum_congr (Finset.filter_congr fun r _ => by rw [col1_apply]; rfl) fun _ _ => rfl

theorem r_agg128 (h : FVec Ideal S50000x128 .f32) (s d : IVec S1600000x1 32) (n : FVec Ideal S1600000 .f32) :
    Host.scatterAdd scatter_S50000x128_S1600000x1_S1600000x128_1_0_0_1
        (broadcastInDim S50000x128 ![] bcast_S_S50000x128 (constant (F := Ideal) S_ .f32 0x00000000#32)) d
        (mulf (Host.gather gather_S50000x128_S1600000x1_S1600000x128_1_0_n_n_0_1_1128 h s)
          (broadcastInDim S1600000x128 ![0, 1] bcast_S1600000x1_S1600000x128_0_1
            (broadcastInDim S1600000x1 ![0] bcast_S1600000_S1600000x1_0 n)))
      = Spec.agg h s d n :=
  agg_op (C := 128) gather_S50000x128_S1600000x1_S1600000x128_1_0_n_n_0_1_1128_wf
    scatter_S50000x128_S1600000x1_S1600000x128_1_0_0_1_wf bcast_S_S50000x128 bcast_S1600000_S1600000x1_0
    bcast_S1600000x1_S1600000x128_0_1 h s d n

theorem r_agg64 (h : FVec Ideal S50000x64 .f32) (s d : IVec S1600000x1 32) (n : FVec Ideal S1600000 .f32) :
    Host.scatterAdd scatter_S50000x64_S1600000x1_S1600000x64_1_0_0_1
        (broadcastInDim S50000x64 ![] bcast_S_S50000x64 (constant (F := Ideal) S_ .f32 0x00000000#32)) d
        (mulf (Host.gather gather_S50000x64_S1600000x1_S1600000x64_1_0_n_n_0_1_164 h s)
          (broadcastInDim S1600000x64 ![0, 1] bcast_S1600000x1_S1600000x64_0_1
            (broadcastInDim S1600000x1 ![0] bcast_S1600000_S1600000x1_0 n)))
      = Spec.agg h s d n :=
  agg_op (C := 64) gather_S50000x64_S1600000x1_S1600000x64_1_0_n_n_0_1_164_wf
    scatter_S50000x64_S1600000x1_S1600000x64_1_0_0_1_wf bcast_S_S50000x64 bcast_S1600000_S1600000x1_0
    bcast_S1600000x1_S1600000x64_0_1 h s d n

end Ops

variable (I : Cert.Spec.In)

-- The input map.
theorem r_h0 : val_main_v18 (F := Ideal) I.x I.W_in I.b_in = I.h0 := by
  unfold val_main_v18 val_main_v15 val_main_v17 val_main_v16
  exact lin_op (n := 50000) (k := 16) (p := 128) _ rfl bcast_S128_S1x128_1 bcast_S1x128_S50000x128_0_1 I.x I.W_in I.b_in

-- The first hidden layer: the dense map, the aggregation with the self term, the normalisation and the positive part.
theorem r_h1 : val_main_v75 (F := Ideal) I.x I.ei I.ew I.W_in I.b_in I.W1 I.b1 I.g1 I.be1 I.rm1 I.rv1 = I.h1 := by
  unfold val_main_v75 val_main_v74 val_main_v73 val_main_v72 val_main_v71 val_main_v70 val_main_v69 val_main_v68
    val_main_v67 val_main_v66 val_main_v65 val_main_cst_11 val_main_v64 val_main_v63 val_main_v62 val_main_call0_v0
    val_main_call0_cst val_main_v61 val_main_v60 val_main_v59 val_main_v58 val_main_v57 val_main_v56 val_main_v49
    val_main_v48 val_main_v47 val_main_v46 val_main_v39 val_main_cst_6 val_main_v22 val_main_v19 val_main_v21 val_main_v20
  rw [r_h0 I, lin_op dot_S50000x128_S128x128_S50000x128_1_0_0_1_n_n rfl bcast_S128_S1x128_1 bcast_S1x128_S50000x128_0_1,
    r_agg128, comb_op bcast_S50000_S50000x1_0 bcast_S50000x1_S50000x128_0_1]
  exact bn_op bcast_S128_S1x128_1 bcast_S1x128_S50000x128_0_1 bcast_S_S128 bcast_S_S50000x128 _ I.g1 I.be1 I.rm1 I.rv1

-- The second hidden layer.
theorem r_h2 : val_main_v132 (F := Ideal) I.x I.ei I.ew I.W_in I.b_in I.W1 I.b1 I.W2 I.b2 I.g1 I.be1 I.rm1 I.rv1 I.g2 I.be2 I.rm2 I.rv2 = I.h2 := by
  unfold val_main_v132 val_main_v131 val_main_v130 val_main_v129 val_main_v128 val_main_v127 val_main_v126
    val_main_v125 val_main_v124 val_main_v123 val_main_v122 val_main_cst_21 val_main_v121 val_main_v120 val_main_v119
    val_main_call1_v0 val_main_call1_cst val_main_v118 val_main_v117 val_main_v116 val_main_v115 val_main_v114 val_main_v113
    val_main_v106 val_main_v105 val_main_v104 val_main_v103 val_main_v96 val_main_cst_16 val_main_v79 val_main_v76 val_main_v78
    val_main_v77
  rw [r_h1 I, lin_op dot_S50000x128_S128x128_S50000x128_1_0_0_1_n_n rfl bcast_S128_S1x128_1 bcast_S1x128_S50000x128_0_1,
    r_agg128, comb_op bcast_S50000_S50000x1_0 bcast_S50000x1_S50000x128_0_1]
  exact bn_op bcast_S128_S1x128_1 bcast_S1x128_S50000x128_0_1 bcast_S_S128 bcast_S_S50000x128 _ I.g2 I.be2 I.rm2 I.rv2

end Cert.ReferenceIdeal.RChain

end
-- ==== Proof.RChainB.lean ====
import proofs.«429700_j86320252715258_2_alg».proof.Proof.RChainA

noncomputable section

namespace Cert.ReferenceIdeal.RChain

open Cert.ReferenceIdeal Cert.ReferenceIdeal.Gen Cert.ReferenceIdeal.Read Cert.Spec
open Idealize.ShloMosaic Idealize.ShloMosaic.TcCoe Idealize.ShloMosaic.ValueIdx Idealize.SL.Sem

variable (I : Cert.Spec.In)

-- The first embedding: the dense map, then the aggregation with the self term, at 64 columns.
theorem r_mu : val_main_v175 (F := Ideal) I.x I.ei I.ew I.W_in I.b_in I.W1 I.b1 I.W2 I.b2 I.Wmu I.bmu I.g1 I.be1 I.rm1 I.rv1 I.g2 I.be2 I.rm2 I.rv2 = I.mu := by
  unfold val_main_v175 val_main_v174 val_main_v173 val_main_v172 val_main_v171 val_main_v170 val_main_v163 val_main_v162
    val_main_v161 val_main_v160 val_main_v153 val_main_cst_26 val_main_v136 val_main_v133 val_main_v135 val_main_v134
  rw [r_h2 I, lin_op dot_S50000x128_S128x64_S50000x64_1_0_0_1_n_n rfl bcast_S64_S1x64_1 bcast_S1x64_S50000x64_0_1,
    r_agg64]
  exact comb_op bcast_S50000_S50000x1_0 bcast_S50000x1_S50000x64_0_1 _ _ _

-- The second embedding.
theorem r_logvar : val_main_v218 (F := Ideal) I.x I.ei I.ew I.W_in I.b_in I.W1 I.b1 I.W2 I.b2 I.Wlv I.blv I.g1 I.be1 I.rm1 I.rv1 I.g2 I.be2 I.rm2 I.rv2 = I.logvar := by
  unfold val_main_v218 val_main_v217 val_main_v216 val_main_v215 val_main_v214 val_main_v213 val_main_v206 val_main_v205
    val_main_v204 val_main_v203 val_main_v196 val_main_cst_35 val_main_v179 val_main_v176 val_main_v178 val_main_v177
  rw [r_h2 I, lin_op dot_S50000x128_S128x64_S50000x64_1_0_0_1_n_n rfl bcast_S64_S1x64_1 bcast_S1x64_S50000x64_0_1,
    r_agg64]
  exact comb_op bcast_S50000_S50000x1_0 bcast_S50000x1_S50000x64_0_1 _ _ _

-- The attention weights: two dense maps with the hyperbolic tangent between them, then the softmax over the nodes.
theorem r_att : val_main_v238 (F := Ideal) I.x I.ei I.ew I.W_in I.b_in I.W1 I.b1 I.W2 I.b2 I.Wmu I.bmu I.g1 I.be1 I.rm1 I.rv1 I.g2 I.be2 I.rm2 I.rv2 I.Wa1 I.ba1 I.Wa2 I.ba2 = I.att := by
  unfold val_main_v238 val_main_v237 val_main_v236 val_main_v235 val_main_v234 val_main_v233 val_main_v232 val_main_v231
    val_main_v230 val_main_v229 val_main_v228 val_main_cst_40 val_main_cst_41 val_main_cst_42 val_main_v227 val_main_v224
    val_main_v226 val_main_v225 val_main_v223 val_main_v222 val_main_v219 val_main_v221 val_main_v220
  rw [r_mu I, lin_op dot_S50000x64_S64x128_S50000x128_1_0_0_1_n_n rfl bcast_S128_S1x128_1 bcast_S1x128_S50000x128_0_1, tanh_op,
    lin_op dot_S50000x128_S128x1_S50000x1_1_0_0_1_n_n rfl bcast_S1_S1x1_1 bcast_S1x1_S50000x1_0_1]
  rfl

end Cert.ReferenceIdeal.RChain

end
-- ==== Proof.RChainC.lean ====
import proofs.«429700_j86320252715258_2_alg».proof.Proof.RChainB

noncomputable section

namespace Cert.ReferenceIdeal.RChain

open Cert.ReferenceIdeal Cert.ReferenceIdeal.Gen Cert.ReferenceIdeal.Read Cert.Spec
open Idealize.ShloMosaic Idealize.ShloMosaic.TcCoe Idealize.ShloMosaic.ValueIdx Idealize.SL.Sem

variable (I : Cert.Spec.In)

-- The pooled weighted embedding of every graph: the embedding scaled row by row by the attention weight, summed by label.
theorem r_v243 : val_main_v243 (F := Ideal) I.x I.ei I.ew I.batch I.W_in I.b_in I.W1 I.b1 I.W2 I.b2 I.Wmu I.bmu I.g1 I.be1 I.rm1 I.rv1 I.g2 I.be2 I.rm2 I.rv2 I.Wa1 I.ba1 I.Wa2 I.ba2 = I.gpool := by
  unfold val_main_v243 val_main_v242 val_main_v241 val_main_cst_43 val_main_v240 val_main_v239
  rw [r_mu I, r_att I, mulCol_op bcast_S50000x1_S50000x64_0_1]
  exact seg_op (C := 64) scatter_S64x64_S50000x1_S50000x64_1_0_0_1_wf bcast_S_S64x64 bcast_S50000_S50000x1_0 _ I.batch

-- The class scores: three dense maps, the first two followed by the positive part.
theorem r_pred_val : val_main_v257 (F := Ideal) I.x I.ei I.ew I.batch I.W_in I.b_in I.W1 I.b1 I.W2 I.b2 I.Wmu I.bmu I.g1 I.be1 I.rm1 I.rv1 I.g2 I.be2 I.rm2 I.rv2 I.Wa1 I.ba1 I.Wa2 I.ba2 I.Wc1 I.bc1 I.Wc2 I.bc2 I.Wc3 I.bc3 = I.pred := by
  unfold val_main_v257 val_main_v254 val_main_v256 val_main_v255 val_main_v253 val_main_call3_v0 val_main_call3_cst
    val_main_v252 val_main_v249 val_main_v251 val_main_v250 val_main_v248 val_main_call2_v0 val_main_call2_cst val_main_v247
    val_main_v244 val_main_v246 val_main_v245
  rw [r_v243 I, lin_op dot_S64x64_S64x128_S64x128_1_0_0_1_n_n rfl bcast_S128_S1x128_1 bcast_S1x128_S64x128_0_1,
    relu_op bcast_S_S64x128, lin_op dot_S64x128_S128x64_S64x64_1_0_0_1_n_n rfl bcast_S64_S1x64_1 bcast_S1x64_S64x64_0_1,
    relu_op bcast_S_S64x64]
  exact lin_op (n := 64) (k := 64) (p := 6) _ rfl bcast_S6_S1x6_1 bcast_S1x6_S64x6_0_1 _ I.Wc3 I.bc3

-- The pooled embedding of every graph.
theorem r_v264 : val_main_v264 (F := Ideal) I.x I.ei I.ew I.batch I.W_in I.b_in I.W1 I.b1 I.W2 I.b2 I.Wmu I.bmu I.g1 I.be1 I.rm1 I.rv1 I.g2 I.be2 I.rm2 I.rv2 = seg I.mu (colI I.batch) := by
  unfold val_main_v264 val_main_v263 val_main_v262 val_main_cst_46
  rw [r_mu I]
  exact seg_op (C := 64) scatter_S64x64_S50000x1_S50000x64_1_0_0_1_wf bcast_S_S64x64 bcast_S50000_S50000x1_0 I.mu I.batch

-- The mean embedding of every graph: the pooled sum divided by the larger of the node count and one.
theorem r_v269 : val_main_v269 (F := Ideal) I.x I.ei I.ew I.batch I.W_in I.b_in I.W1 I.b1 I.W2 I.b2 I.Wmu I.bmu I.g1 I.be1 I.rm1 I.rv1 I.g2 I.be2 I.rm2 I.rv2 = I.zmean := by
  unfold val_main_v269 val_main_v268 val_main_v267 val_main_v266 val_main_v265 val_main_v261 val_main_v260 val_main_v259
    val_main_v258 val_main_cst_47 val_main_cst_45 val_main_cst_44
  rw [r_v264 I]
  rfl

-- The noise probabilities: two dense maps with the positive part between them, then the logistic function.
theorem r_noise_val : val_main_v284 (F := Ideal) I.x I.ei I.ew I.batch I.W_in I.b_in I.W1 I.b1 I.W2 I.b2 I.Wmu I.bmu I.g1 I.be1 I.rm1 I.rv1 I.g2 I.be2 I.rm2 I.rv2 I.Wn1 I.bn1 I.Wn2 I.bn2 = I.noise := by
  unfold val_main_v284 val_main_v283 val_main_cst_49 val_main_v282 val_main_v281 val_main_cst_48 val_main_v280 val_main_v279
    val_main_v278 val_main_v275 val_main_v277 val_main_v276 val_main_v274 val_main_call4_v0 val_main_call4_cst val_main_v273
    val_main_v270 val_main_v272 val_main_v271
  rw [r_v269 I, lin_op dot_S64x64_S64x64_S64x64_1_0_0_1_n_n rfl bcast_S64_S1x64_1 bcast_S1x64_S64x64_0_1,
    relu_op bcast_S_S64x64, lin_op dot_S64x64_S64x1_S64x1_1_0_0_1_n_n rfl bcast_S1_S1x1_1 bcast_S1x1_S64x1_0_1]
  exact logistic_op bcast_S_S64x1 _

end Cert.ReferenceIdeal.RChain

end
-- ==== Proof.lean ====
import proofs.«429700_j86320252715258_2_alg».proof.Defs
import proofs.«429700_j86320252715258_2_alg».proof.Proof.Gen.Kernel
import proofs.«429700_j86320252715258_2_alg».proof.Proof.Gen.Kernel.Skeleton
import proofs.«429700_j86320252715258_2_alg».proof.Proof.Gen.Kernel.Launch
import proofs.«429700_j86320252715258_2_alg».proof.Proof.Gen.Kernel.Points
import proofs.«429700_j86320252715258_2_alg».proof.Proof.Gen.Kernel.Frame
import proofs.«429700_j86320252715258_2_alg».proof.Proof.Gen.KernelIdeal
import proofs.«429700_j86320252715258_2_alg».proof.Proof.Gen.KernelIdeal.Skeleton
import proofs.«429700_j86320252715258_2_alg».proof.Proof.Gen.KernelIdeal.Launch
import proofs.«429700_j86320252715258_2_alg».proof.Proof.Gen.KernelIdeal.Points
import proofs.«429700_j86320252715258_2_alg».proof.Proof.Gen.KernelIdeal.Frame
import proofs.«429700_j86320252715258_2_alg».proof.Proof.Gen.ReferenceIdeal
import proofs.«429700_j86320252715258_2_alg».proof.Proof.RRun
import proofs.«429700_j86320252715258_2_alg».proof.Proof.Gen.Pre_finite_inputs
import proofs.«429700_j86320252715258_2_alg».proof.Proof.KRun
import proofs.«429700_j86320252715258_2_alg».proof.Proof.KChainC
import proofs.«429700_j86320252715258_2_alg».proof.Proof.RChainC
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

-- The reference launches no region: its frame is its run with the results dropped.
theorem frame_ri : Cert.frame_ReferenceIdeal := fun m ρ _ =>
  (θ_run Cert.ReferenceIdeal.defs _ _).mono (fun _ h c => by
    have H := (h c).2
    exact ⟨H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide)⟩)
    (Cert.ReferenceIdeal.Value.run (F := Ideal) m ρ)

-- Both programs end with their four results at the network's function of the inputs, and the inputs agree.
theorem algebraic : Cert.algebraic_KernelIdeal_ReferenceIdeal := by
  intro m ρ m' ρ' _ hagree
  have e : ∀ c, Cert.ReferenceIdeal.RChain.rin m' c = Cert.KernelIdeal.KChain.kin m c := fun c => by
    obtain ⟨h0, h1, h2, h3, h4, h5, h6, h7, h8, h9, h10, h11, h12, h13, h14, h15, h16, h17, h18, h19, h20, h21, h22, h23, h24, h25, h26, h27, h28, h29, h30, h31, h32, h33, h34, h35⟩ := hagree c
    unfold Cert.ReferenceIdeal.RChain.rin Cert.KernelIdeal.KChain.kin
    congr 1
  refine ⟨fun c => (Cert.KernelIdeal.KChain.kin m c).pred, fun c => (Cert.KernelIdeal.KChain.kin m c).mu,
    fun c => (Cert.KernelIdeal.KChain.kin m c).logvar, fun c => (Cert.KernelIdeal.KChain.kin m c).noise, ?_, ?_⟩
  · refine (θ_run Cert.KernelIdeal.defs _ _).mono (fun r h c => ?_) (Cert.KernelIdeal.RunV.run_values (F := Ideal) m ρ)
    obtain ⟨h0, h1, h2, h3, hargs⟩ := h c
    exact ⟨h0.trans (Cert.KernelIdeal.KChain.k_pred m ρ c), h1.trans (Cert.KernelIdeal.KChain.k_mu m ρ c),
      h2.trans (Cert.KernelIdeal.KChain.k_logvar m ρ c), h3.trans (Cert.KernelIdeal.KChain.k_noise m ρ c), hargs⟩
  · refine (θ_run Cert.ReferenceIdeal.defs _ _).mono (fun r h c => ?_) (Cert.ReferenceIdeal.Value.run (F := Ideal) m' ρ')
    obtain ⟨⟨h0, h1, h2, h3⟩, H⟩ := h c
    exact ⟨h0.trans ((Cert.ReferenceIdeal.RChain.r_pred_val (Cert.ReferenceIdeal.RChain.rin m' c)).trans (by rw [e])),
      h1.trans ((Cert.ReferenceIdeal.RChain.r_mu (Cert.ReferenceIdeal.RChain.rin m' c)).trans (by rw [e])),
      h2.trans ((Cert.ReferenceIdeal.RChain.r_logvar (Cert.ReferenceIdeal.RChain.rin m' c)).trans (by rw [e])),
      h3.trans ((Cert.ReferenceIdeal.RChain.r_noise_val (Cert.ReferenceIdeal.RChain.rin m' c)).trans (by rw [e])),
      H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide),
      H _ (by decide), H _ (by decide), H _ (by decide), H _ (by decide), H _ (by decide), H _ (by decide)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
